-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S64x32 : Shape := ⟨2, ![64, 32]⟩
abbrev S32 : Shape := ⟨1, ![32]⟩
abbrev S32x32 : Shape := ⟨2, ![32, 32]⟩
abbrev S2x800000 : Shape := ⟨2, ![2, 800000]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_arg7 : FVec F S32 .f32) (main_arg8 : FVec F S32 .f32) (main_arg9 : IVec S2x800000 32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_c_16 : IVec S_ 32 := constantI S_ 32 0#32
  let main_v44 : IVec S2x800000 32 := broadcastInDim S2x800000 ![] bcast_S_S2x800000 main_c_16
  let main_v45 : IVec S2x800000 1 := cmpi .sge main_arg9 main_v44
  let main_c_17 : IVec S_ 32 := constantI S_ 32 50000#32
  let main_v46 : IVec S2x800000 32 := broadcastInDim S2x800000 ![] bcast_S_S2x800000 main_c_17
  let main_v47 : IVec S2x800000 1 := cmpi .slt main_arg9 main_v46
  let main_v48 : IVec S2x800000 1 := andi main_v45 main_v47
  let main_c_18 : IVec S_ 1 := constantI S_ 1 1#1
  let main_v49 : IVec S_ 1 := (fun x v => Host.reduce IntOp.andi x v reducesTo_S2x800000_S_d0_1 h_S_) main_v48 main_c_18
  let main_v50 : IVec S_ 1 := andi main_v43 main_v49
  main_v50

def fn_part1 {F : FTy → Type} [FloatOps F] (main_arg4 : FVec F S32 .f32) (main_arg5 : FVec F S32x32 .f32) (main_arg6 : FVec F S32 .f32) (main_arg7 : FVec F S32 .f32) (main_arg8 : FVec F S32 .f32) (main_arg9 : IVec S2x800000 32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_v33

def fn {F : FTy → Type} [FloatOps F] (main_arg0 : FVec F S50000x32 .f32) (main_arg1 : FVec F S64x32 .f32) (main_arg2 : FVec F S32 .f32) (main_arg3 : FVec F S32 .f32) (main_arg4 : FVec F S32 .f32) (main_arg5 : FVec F S32x32 .f32) (main_arg6 : FVec F S32 .f32) (main_arg7 : FVec F S32 .f32) (main_arg8 : FVec F S32 .f32) (main_arg9 : IVec S2x800000 32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S64x32 .f32 := Host.absf main_arg1
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_v13 main_v16
-- ==== Kernel.lean ====
abbrev S50000x32 : Shape := ⟨2, ![50000, 32]⟩
abbrev S64x32 : Shape := ⟨2, ![64, 32]⟩
abbrev S32 : Shape := ⟨1, ![32]⟩
abbrev S32x32 : Shape := ⟨2, ![32, 32]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x32 : Shape := ⟨2, ![800000, 32]⟩
abbrev S200000x128 : Shape := ⟨2, ![200000, 128]⟩
abbrev S32x128 : Shape := ⟨2, ![32, 128]⟩
abbrev S128x128 : Shape := ⟨2, ![128, 128]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S16x128 : Shape := ⟨2, ![16, 128]⟩
abbrev S4000x128 : Shape := ⟨2, ![4000, 128]⟩
abbrev S8x128 : Shape := ⟨2, ![8, 128]⟩

abbrev nBuf : Space → Nat
  | .hbm => 183
  | .vmem => 35
  | .smem => 0
  | _ => 0

abbrev hbmTy0_0 (i : Nat) : BufTy := match i % 128 with
  | 0 => ⟨S50000x32, .f32⟩
  | 1 => ⟨S64x32, .f32⟩
  | 2 => ⟨S32, .f32⟩
  | 3 => ⟨S32, .f32⟩
  | 4 => ⟨S32, .f32⟩
  | 5 => ⟨S32x32, .f32⟩
  | 6 => ⟨S32, .f32⟩
  | 7 => ⟨S32, .f32⟩
  | 8 => ⟨S32, .f32⟩
  | 9 => ⟨S2x800000, .i32⟩
  | 10 => ⟨S1x800000, .i32⟩
  | 11 => ⟨S800000, .i32⟩
  | 12 => ⟨S1x800000, .i32⟩
  | 13 => ⟨S800000, .i32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S1, .i32⟩
  | 23 => ⟨S_, .i32⟩
  | 24 => ⟨S800000x1, .i32⟩
  | 25 => ⟨S800000x1, .i1⟩
  | 26 => ⟨S1x1, .i32⟩
  | 27 => ⟨S800000x1, .i32⟩
  | 28 => ⟨S800000x1, .i1⟩
  | 29 => ⟨S800000x1, .i1⟩
  | 30 => ⟨S_, .i1⟩
  | 31 => ⟨S800000, .i1⟩
  | 32 => ⟨S800000x32, .f32⟩
  | 33 => ⟨S800000x32, .i1⟩
  | 34 => ⟨S_, .f32⟩
  | 35 => ⟨S800000x32, .f32⟩
  | 36 => ⟨S800000x32, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S1, .i32⟩
  | 46 => ⟨S_, .i32⟩
  | 47 => ⟨S800000x1, .i32⟩
  | 48 => ⟨S800000x1, .i1⟩
  | 49 => ⟨S1x1, .i32⟩
  | 50 => ⟨S800000x1, .i32⟩
  | 51 => ⟨S800000x1, .i1⟩
  | 52 => ⟨S800000x1, .i1⟩
  | 53 => ⟨S_, .i1⟩
  | 54 => ⟨S800000, .i1⟩
  | 55 => ⟨S800000x32, .f32⟩
  | 56 => ⟨S800000x32, .i1⟩
  | 57 => ⟨S_, .f32⟩
  | 58 => ⟨S800000x32, .f32⟩
  | 59 => ⟨S800000x32, .f32⟩
  | 60 => ⟨S200000x128, .f32⟩
  | 61 => ⟨S200000x128, .f32⟩
  | 62 => ⟨S32x32, .f32⟩
  | 63 => ⟨S32x32, .f32⟩
  | 64 => ⟨S_, .f32⟩
  | 65 => ⟨S32x32, .f32⟩
  | 66 => ⟨S32x128, .f32⟩
  | 67 => ⟨S32x128, .f32⟩
  | 68 => ⟨S32x128, .f32⟩
  | 69 => ⟨S32x128, .f32⟩
  | 70 => ⟨S128x128, .f32⟩
  | 71 => ⟨S_, .f32⟩
  | 72 => ⟨S32x32, .f32⟩
  | 73 => ⟨S32x128, .f32⟩
  | 74 => ⟨S32x128, .f32⟩
  | 75 => ⟨S32x128, .f32⟩
  | 76 => ⟨S32x128, .f32⟩
  | 77 => ⟨S128x128, .f32⟩
  | 78 => ⟨S_, .f32⟩
  | 79 => ⟨S32x32, .f32⟩
  | 80 => ⟨S32x128, .f32⟩
  | 81 => ⟨S32x128, .f32⟩
  | 82 => ⟨S32x128, .f32⟩
  | 83 => ⟨S32x128, .f32⟩
  | 84 => ⟨S128x128, .f32⟩
  | 85 => ⟨S1x32, .f32⟩
  | 86 => ⟨S4x32, .f32⟩
  | 87 => ⟨S128, .f32⟩
  | 88 => ⟨S1x128, .f32⟩
  | 89 => ⟨S1x32, .f32⟩
  | 90 => ⟨S4x32, .f32⟩
  | 91 => ⟨S128, .f32⟩
  | 92 => ⟨S1x128, .f32⟩
  | 93 => ⟨S1x32, .f32⟩
  | 94 => ⟨S4x32, .f32⟩
  | 95 => ⟨S128, .f32⟩
  | 96 => ⟨S1x128, .f32⟩
  | 97 => ⟨S1x32, .f32⟩
  | 98 => ⟨S4x32, .f32⟩
  | 99 => ⟨S128, .f32⟩
  | 100 => ⟨S1x128, .f32⟩
  | 101 => ⟨S1x32, .f32⟩
  | 102 => ⟨S4x32, .f32⟩
  | 103 => ⟨S128, .f32⟩
  | 104 => ⟨S1x128, .f32⟩
  | 105 => ⟨S1x32, .f32⟩
  | 106 => ⟨S4x32, .f32⟩
  | 107 => ⟨S128, .f32⟩
  | 108 => ⟨S1x128, .f32⟩
  | 109 => ⟨S200000x128, .f32⟩
  | 110 => ⟨S16x128, .f32⟩
  | 111 => ⟨S16x128, .f32⟩
  | 112 => ⟨S1x128, .f32⟩
  | 113 => ⟨S1x128, .f32⟩
  | 114 => ⟨S1x128, .f32⟩
  | 115 => ⟨S1x128, .f32⟩
  | 116 => ⟨S1x128, .f32⟩
  | 117 => ⟨S1x128, .f32⟩
  | 118 => ⟨S4x32, .f32⟩
  | 119 => ⟨S_, .f32⟩
  | 120 => ⟨S32, .f32⟩
  | 121 => ⟨S4x32, .f32⟩
  | 122 => ⟨S_, .f32⟩
  | 123 => ⟨S32, .f32⟩
  | 124 => ⟨S_, .f32⟩
  | 125 => ⟨S32, .f32⟩
  | 126 => ⟨S32, .f32⟩
  | 127 => ⟨S_, .f32⟩
  | _ => ⟨S50000x32, .f32⟩

abbrev hbmTy0_1 (i : Nat) : BufTy := match i % 128 with
  | 0 => ⟨S32, .f32⟩
  | 1 => ⟨S32, .f32⟩
  | 2 => ⟨S32, .f32⟩
  | 3 => ⟨S32, .f32⟩
  | 4 => ⟨S_, .f32⟩
  | 5 => ⟨S32, .f32⟩
  | 6 => ⟨S32, .f32⟩
  | 7 => ⟨S1x32, .f32⟩
  | 8 => ⟨S4x32, .f32⟩
  | 9 => ⟨S128, .f32⟩
  | 10 => ⟨S1x128, .f32⟩
  | 11 => ⟨S1x32, .f32⟩
  | 12 => ⟨S4x32, .f32⟩
  | 13 => ⟨S128, .f32⟩
  | 14 => ⟨S1x128, .f32⟩
  | 15 => ⟨S200000x128, .f32⟩
  | 16 => ⟨S16x128, .f32⟩
  | 17 => ⟨S16x128, .f32⟩
  | 18 => ⟨S1x128, .f32⟩
  | 19 => ⟨S1x128, .f32⟩
  | 20 => ⟨S1x128, .f32⟩
  | 21 => ⟨S1x128, .f32⟩
  | 22 => ⟨S1x128, .f32⟩
  | 23 => ⟨S1x128, .f32⟩
  | 24 => ⟨S4x32, .f32⟩
  | 25 => ⟨S_, .f32⟩
  | 26 => ⟨S32, .f32⟩
  | 27 => ⟨S4x32, .f32⟩
  | 28 => ⟨S_, .f32⟩
  | 29 => ⟨S32, .f32⟩
  | 30 => ⟨S_, .f32⟩
  | 31 => ⟨S32, .f32⟩
  | 32 => ⟨S32, .f32⟩
  | 33 => ⟨S_, .f32⟩
  | 34 => ⟨S32, .f32⟩
  | 35 => ⟨S32, .f32⟩
  | 36 => ⟨S32, .f32⟩
  | 37 => ⟨S32, .f32⟩
  | 38 => ⟨S_, .f32⟩
  | 39 => ⟨S32, .f32⟩
  | 40 => ⟨S32, .f32⟩
  | 41 => ⟨S1x32, .f32⟩
  | 42 => ⟨S4x32, .f32⟩
  | 43 => ⟨S128, .f32⟩
  | 44 => ⟨S1x128, .f32⟩
  | 45 => ⟨S1x32, .f32⟩
  | 46 => ⟨S4x32, .f32⟩
  | 47 => ⟨S128, .f32⟩
  | 48 => ⟨S1x128, .f32⟩
  | 49 => ⟨S200000x128, .f32⟩
  | 50 => ⟨S800000x32, .f32⟩
  | 51 => ⟨S_, .f32⟩
  | 52 => ⟨S50000x32, .f32⟩
  | 53 => ⟨S800000x1, .i32⟩
  | 54 => ⟨S50000x32, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S4000x128, .f32⟩
  | .local _ .vmem, ⟨14, _⟩ => ⟨S4000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S4000x128, .f32⟩
  | .local _ .vmem, ⟨22, _⟩ => ⟨S4000x128, .f32⟩
  | .local _ .vmem, ⟨23, _⟩ => ⟨S8x128, .f32⟩
  | .local _ .vmem, ⟨24, _⟩ => ⟨S8x128, .f32⟩
  | .local _ .vmem, ⟨25, _⟩ => ⟨S8x128, .f32⟩
  | .local _ .vmem, ⟨26, _⟩ => ⟨S8x128, .f32⟩
  | .local _ .vmem, ⟨27, _⟩ => ⟨S4000x128, .f32⟩
  | .local _ .vmem, ⟨28, _⟩ => ⟨S4000x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S4000x128, .f32⟩
  | .local _ .vmem, ⟨34, _⟩ => ⟨S4000x128, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v4 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_cst : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_cst_0 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_cst_1 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52_0 : Ref sig .tc := ⟨.hbm, 109, rfl⟩
abbrev main_v52_1 : Ref sig .tc := ⟨.hbm, 110, rfl⟩
abbrev main_v52_2 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_cst_2 : Ref sig .tc := ⟨.hbm, 119, rfl⟩
abbrev main_v60 : Ref sig .tc := ⟨.hbm, 120, rfl⟩
abbrev main_v61 : Ref sig .tc := ⟨.hbm, 121, rfl⟩
abbrev main_cst_3 : Ref sig .tc := ⟨.hbm, 122, rfl⟩
abbrev main_v62 : Ref sig .tc := ⟨.hbm, 123, rfl⟩
abbrev main_cst_4 : Ref sig .tc := ⟨.hbm, 124, rfl⟩
abbrev main_v63 : Ref sig .tc := ⟨.hbm, 125, rfl⟩
abbrev main_v64 : Ref sig .tc := ⟨.hbm, 126, rfl⟩
abbrev main_cst_5 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_cst_6 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79_0 : Ref sig .tc := ⟨.hbm, 143, rfl⟩
abbrev main_v79_1 : Ref sig .tc := ⟨.hbm, 144, rfl⟩
abbrev main_v79_2 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_cst_7 : Ref sig .tc := ⟨.hbm, 153, rfl⟩
abbrev main_v87 : Ref sig .tc := ⟨.hbm, 154, rfl⟩
abbrev main_v88 : Ref sig .tc := ⟨.hbm, 155, rfl⟩
abbrev main_cst_8 : Ref sig .tc := ⟨.hbm, 156, rfl⟩
abbrev main_v89 : Ref sig .tc := ⟨.hbm, 157, rfl⟩
abbrev main_cst_9 : Ref sig .tc := ⟨.hbm, 158, rfl⟩
abbrev main_v90 : Ref sig .tc := ⟨.hbm, 159, rfl⟩
abbrev main_v91 : Ref sig .tc := ⟨.hbm, 160, rfl⟩
abbrev main_cst_10 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_cst_11 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_cst_12 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg9_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22
abbrev cc1_sem8_0 : DmaSem sig := 23
abbrev cc1_sem8_1 : DmaSem sig := 24
abbrev cc1_sem9_0 : DmaSem sig := 25
abbrev cc1_sem9_1 : DmaSem sig := 26
abbrev cc2_sem0_0 : DmaSem sig := 27
abbrev cc2_sem0_1 : DmaSem sig := 28
abbrev cc2_sem1_0 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![2, 25], ![false, false]⟩

def cc1_transform_0 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S8x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S8x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x32_0 : S800000.BroadcastsInDim S800000x32 (![0] : Fin 1 → Fin S800000x32.rank)
  bcast_S_S800000x32 : S_.BroadcastsInDim S800000x32 (![] : Fin 0 → Fin S800000x32.rank)
  shapeCasts_S800000x32_S200000x128 : S800000x32.ShapeCasts S200000x128
  slices_S64x32_S32x32_0_0 : S64x32.Slices ![0, 0] S32x32
  slices_S64x32_S32x32_32_0 : S64x32.Slices ![32, 0] S32x32
  bcast_S_S32x32 : S_.BroadcastsInDim S32x32 (![] : Fin 0 → Fin S32x32.rank)
  concatenates_S32x32_S32x32_S32x32_S32x32_S32x128_d1 : Shape.Concatenates [S32x32, S32x32, S32x32, S32x32] S32x128 1
  concatenates_S32x128_S32x128_S32x128_S32x128_S128x128_d0 : Shape.Concatenates [S32x128, S32x128, S32x128, S32x128] S128x128 0
  shapeCasts_S32_S1x32 : S32.ShapeCasts S1x32
  bcast_S1x32_S4x32_0_1 : S1x32.BroadcastsInDim S4x32 (![0, 1] : Fin 2 → Fin S4x32.rank)
  shapeCasts_S4x32_S128 : S4x32.ShapeCasts S128
  shapeCasts_S128_S1x128 : S128.ShapeCasts S1x128
  inb_S8x128_S8x128_0_0 : ∀ a, (![0, 0] : Fin 2 → Nat) a + S8x128.size a ≤ S8x128.size a
  h_S8x128 : 0 < S8x128.numel
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S128 : S4000x128.Reduces [0] S128
  shapeCasts_S8x128_S8x128 : S8x128.ShapeCasts S8x128
  broadcasts_S1x128_S8x128 : S1x128.Broadcasts S8x128
  slices_S16x128_S1x128_0_0 : S16x128.Slices ![0, 0] S1x128
  slices_S16x128_S1x128_8_0 : S16x128.Slices ![8, 0] S1x128
  shapeCasts_S1x128_S4x32 : S1x128.ShapeCasts S4x32
  reducesTo_S4x32_S32_d0 : S4x32.ReducesTo [0] S32
  bcast_S_S32 : S_.BroadcastsInDim S32 (![] : Fin 0 → Fin S32.rank)
  shapeCasts_S200000x128_S800000x32 : S200000x128.ShapeCasts S800000x32
  bcast_S_S50000x32 : S_.BroadcastsInDim S50000x32 (![] : Fin 0 → Fin S50000x32.rank)
  gather_S50000x32_S800000x1_S800000x32_1_0_n_n_0_1_132_wf : GatherDims.WF S50000x32 S800000x1 S800000x32 [1] [0] [] [0] [] 1 ![1, 32]
  dot_S4000x128_S128x128_S4000x128_1_0_0_1_n_n_wf : DotDims.WF S4000x128 S128x128 S4000x128 [1] [0] [0] [1] [] []
  scatter_S50000x32_S800000x1_S800000x32_1_0_0_1_wf : ScatterDims.WF S50000x32 S800000x1 S800000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S200000x128.size a
  hwx0_1 : ∀ i : grid0.Coords, EltTy.bits .f32 = 32 ∨ (Rect.block (s := S200000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S200000x128.size a
  hwx0_5 : ∀ i : grid0.Coords, EltTy.bits .f32 = 32 ∨ (Rect.block (s := S200000x128) S4000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S16x128.size a
  hwx0_6 : ∀ i : grid0.Coords, EltTy.bits .f32 = 32 ∨ (Rect.block (s := S16x128) S8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S16x128.size a
  hwx0_7 : ∀ i : grid0.Coords, EltTy.bits .f32 = 32 ∨ (Rect.block (s := S16x128) S8x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S200000x128.size a
  hwx1_0 : ∀ i : grid1.Coords, EltTy.bits .f32 = 32 ∨ (Rect.block (s := S200000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S200000x128.size a
  hwx1_7 : ∀ i : grid1.Coords, EltTy.bits .f32 = 32 ∨ (Rect.block (s := S200000x128) S4000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8x128.size a ≤ S16x128.size a
  hwx1_8 : ∀ i : grid1.Coords, EltTy.bits .f32 = 32 ∨ (Rect.block (s := S16x128) S8x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8x128.size a ≤ S16x128.size a
  hwx1_9 : ∀ i : grid1.Coords, EltTy.bits .f32 = 32 ∨ (Rect.block (s := S16x128) S8x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S200000x128.size a
  hwx2_0 : ∀ i : grid2.Coords, EltTy.bits .f32 = 32 ∨ (Rect.block (s := S200000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S200000x128.size a
  hwx2_5 : ∀ i : grid2.Coords, EltTy.bits .f32 = 32 ∨ (Rect.block (s := S200000x128) S4000x128.size (cc2_transform_5 i) (hinb2_5 i)).WholeWords (EltTy.packing .f32)

variable [Facts₀]

def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

abbrev win0_0 : Pipeline.Window sig grid0 :=
  Pipeline.Window.ofSpec (Memref.whole main_v6) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v52_0) S4000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v52_1) S8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v52_2) S8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v52_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v74) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v78) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v79_0) S4000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v79_1) S8x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v79_2) S8x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v79_0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v101) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v105) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v106) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x32 : Shape := ⟨2, ![50000, 32]⟩
abbrev S64x32 : Shape := ⟨2, ![64, 32]⟩
abbrev S32 : Shape := ⟨1, ![32]⟩
abbrev S32x32 : Shape := ⟨2, ![32, 32]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x32 : Shape := ⟨2, ![800000, 32]⟩
abbrev S800000x64 : Shape := ⟨2, ![800000, 64]⟩
abbrev S1x32 : Shape := ⟨2, ![1, 32]⟩

abbrev nBuf : Space → Nat
  | .hbm => 111
  | .vmem => 0
  | .smem => 0
  | _ => 0

abbrev bufTy : (tb : Table) → Fin (tcTables nBuf tb) → BufTy
  | .hbm, ⟨0, _⟩ => ⟨S50000x32, .f32⟩
  | .hbm, ⟨1, _⟩ => ⟨S64x32, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S2x800000, .i32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x32, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x32, .f32⟩
  | .hbm, ⟨32, _⟩ => ⟨S800000x64, .f32⟩
  | .hbm, ⟨33, _⟩ => ⟨S800000x32, .f32⟩
  | .hbm, ⟨34, _⟩ => ⟨S1x32, .f32⟩
  | .hbm, ⟨35, _⟩ => ⟨S800000x32, .f32⟩
  | .hbm, ⟨36, _⟩ => ⟨S800000x32, .f32⟩
  | .hbm, ⟨37, _⟩ => ⟨S_, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S1x32, .f32⟩
  | .hbm, ⟨43, _⟩ => ⟨S800000x32, .f32⟩
  | .hbm, ⟨44, _⟩ => ⟨S800000x32, .f32⟩
  | .hbm, ⟨45, _⟩ => ⟨S800000x32, .f32⟩
  | .hbm, ⟨46, _⟩ => ⟨S_, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S1x32, .f32⟩
  | .hbm, ⟨52, _⟩ => ⟨S800000x32, .f32⟩
  | .hbm, ⟨53, _⟩ => ⟨S800000x32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S32, .f32⟩
  | .hbm, ⟨58, _⟩ => ⟨S1x32, .f32⟩
  | .hbm, ⟨59, _⟩ => ⟨S800000x32, .f32⟩
  | .hbm, ⟨60, _⟩ => ⟨S800000x32, .f32⟩
  | .hbm, ⟨61, _⟩ => ⟨S1x32, .f32⟩
  | .hbm, ⟨62, _⟩ => ⟨S800000x32, .f32⟩
  | .hbm, ⟨63, _⟩ => ⟨S800000x32, .f32⟩
  | .hbm, ⟨64, _⟩ => ⟨S1x32, .f32⟩
  | .hbm, ⟨65, _⟩ => ⟨S800000x32, .f32⟩
  | .hbm, ⟨66, _⟩ => ⟨S800000x32, .f32⟩
  | .hbm, ⟨67, _⟩ => ⟨S_, .f32⟩
  | .hbm, ⟨68, _⟩ => ⟨S800000x32, .f32⟩
  | .hbm, ⟨69, _⟩ => ⟨S800000x32, .f32⟩
  | .hbm, ⟨70, _⟩ => ⟨S800000x32, .f32⟩
  | .hbm, ⟨71, _⟩ => ⟨S1x32, .f32⟩
  | .hbm, ⟨72, _⟩ => ⟨S800000x32, .f32⟩
  | .hbm, ⟨73, _⟩ => ⟨S800000x32, .f32⟩
  | .hbm, ⟨74, _⟩ => ⟨S_, .f32⟩
  | .hbm, ⟨75, _⟩ => ⟨S32, .f32⟩
  | .hbm, ⟨76, _⟩ => ⟨S_, .f32⟩
  | .hbm, ⟨77, _⟩ => ⟨S32, .f32⟩
  | .hbm, ⟨78, _⟩ => ⟨S32, .f32⟩
  | .hbm, ⟨79, _⟩ => ⟨S1x32, .f32⟩
  | .hbm, ⟨80, _⟩ => ⟨S800000x32, .f32⟩
  | .hbm, ⟨81, _⟩ => ⟨S800000x32, .f32⟩
  | .hbm, ⟨82, _⟩ => ⟨S800000x32, .f32⟩
  | .hbm, ⟨83, _⟩ => ⟨S_, .f32⟩
  | .hbm, ⟨84, _⟩ => ⟨S32, .f32⟩
  | .hbm, ⟨85, _⟩ => ⟨S_, .f32⟩
  | .hbm, ⟨86, _⟩ => ⟨S32, .f32⟩
  | .hbm, ⟨87, _⟩ => ⟨S32, .f32⟩
  | .hbm, ⟨88, _⟩ => ⟨S1x32, .f32⟩
  | .hbm, ⟨89, _⟩ => ⟨S800000x32, .f32⟩
  | .hbm, ⟨90, _⟩ => ⟨S800000x32, .f32⟩
  | .hbm, ⟨91, _⟩ => ⟨S_, .f32⟩
  | .hbm, ⟨92, _⟩ => ⟨S32, .f32⟩
  | .hbm, ⟨93, _⟩ => ⟨S32, .f32⟩
  | .hbm, ⟨94, _⟩ => ⟨S32, .f32⟩
  | .hbm, ⟨95, _⟩ => ⟨S1x32, .f32⟩
  | .hbm, ⟨96, _⟩ => ⟨S800000x32, .f32⟩
  | .hbm, ⟨97, _⟩ => ⟨S800000x32, .f32⟩
  | .hbm, ⟨98, _⟩ => ⟨S1x32, .f32⟩
  | .hbm, ⟨99, _⟩ => ⟨S800000x32, .f32⟩
  | .hbm, ⟨100, _⟩ => ⟨S800000x32, .f32⟩
  | .hbm, ⟨101, _⟩ => ⟨S1x32, .f32⟩
  | .hbm, ⟨102, _⟩ => ⟨S800000x32, .f32⟩
  | .hbm, ⟨103, _⟩ => ⟨S800000x32, .f32⟩
  | .hbm, ⟨104, _⟩ => ⟨S_, .f32⟩
  | .hbm, ⟨105, _⟩ => ⟨S800000x32, .f32⟩
  | .hbm, ⟨106, _⟩ => ⟨S800000x32, .f32⟩
  | .hbm, ⟨107, _⟩ => ⟨S_, .f32⟩
  | .hbm, ⟨108, _⟩ => ⟨S50000x32, .f32⟩
  | .hbm, ⟨109, _⟩ => ⟨S800000x1, .i32⟩
  | .hbm, ⟨110, _⟩ => ⟨S50000x32, .f32⟩
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_7 : Ref sig .tc := ⟨.hbm, 74, rfl⟩
abbrev main_v53 : Ref sig .tc := ⟨.hbm, 75, rfl⟩
abbrev main_cst_8 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_9 : Ref sig .tc := ⟨.hbm, 83, rfl⟩
abbrev main_v60 : Ref sig .tc := ⟨.hbm, 84, rfl⟩
abbrev main_cst_10 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_call1_cst : Ref sig .tc := ⟨.hbm, 104, rfl⟩
abbrev main_call1_v0 : Ref sig .tc := ⟨.hbm, 105, rfl⟩
abbrev main_v78 : Ref sig .tc := ⟨.hbm, 106, rfl⟩
abbrev main_cst_12 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x32_S800000x32_S800000x64_d1 : Shape.Concatenates [S800000x32, S800000x32] S800000x64 1
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  reducesTo_S800000x32_S32_d0 : S800000x32.ReducesTo [0] S32
  h_S_ : 0 < S_.numel
  bcast_S_S32 : S_.BroadcastsInDim S32 (![] : Fin 0 → Fin S32.rank)
  bcast_S_S800000x32 : S_.BroadcastsInDim S800000x32 (![] : Fin 0 → Fin S800000x32.rank)
  bcast_S_S50000x32 : S_.BroadcastsInDim S50000x32 (![] : Fin 0 → Fin S50000x32.rank)
  gather_S50000x32_S800000x1_S800000x32_1_0_n_n_0_1_132_wf : GatherDims.WF S50000x32 S800000x1 S800000x32 [1] [0] [] [0] [] 1 ![1, 32]
  dot_S800000x64_S64x32_S800000x32_1_0_0_1_n_n_wf : DotDims.WF S800000x64 S64x32 S800000x32 [1] [0] [0] [1] [] []
  dot_S800000x32_S32x32_S800000x32_1_0_0_1_n_n_wf : DotDims.WF S800000x32 S32x32 S800000x32 [1] [0] [0] [1] [] []
  scatter_S50000x32_S800000x1_S800000x32_1_0_0_1_wf : ScatterDims.WF S50000x32 S800000x1 S800000x32 [1] [0] [0] 1

variable [Facts₀]

def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def dot_S800000x64_S64x32_S800000x32_1_0_0_1_n_n : DotDims S800000x64 S64x32 S800000x32 where
  lhsContracting := [1]
  rhsContracting := [0]
  lhsNonContracting := [0]
  rhsNonContracting := [1]
  lhsBatch := []
  rhsBatch := []
  wf := dot_S800000x64_S64x32_S800000x32_1_0_0_1_n_n_wf
def dot_S800000x32_S32x32_S800000x32_1_0_0_1_n_n : DotDims S800000x32 S32x32 S800000x32 where
  lhsContracting := [1]
  rhsContracting := [0]
  lhsNonContracting := [0]
  rhsNonContracting := [1]
  lhsBatch := []
  rhsBatch := []
  wf := dot_S800000x32_S32x32_S800000x32_1_0_0_1_n_n_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

class Facts : Prop extends Facts₀ where

variable [Facts]
-- ==== Proof.KI.R0.Frame.lean ====
import proofs.«416909_j55972013802026_3_alg».proof.Proof.Gen.KernelIdeal.Launch
import proofs.«416909_j55972013802026_3_alg».proof.Proof.Gen.KernelIdeal.Skeleton
import proofs.«416909_j55972013802026_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! First call: the first affine layer on packed rows, its column sums and sums of squares accumulated over the 25 tiles of each half. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev zeroCond (i : grid0.Coords) : Prop := (Scalar.cmpi .ne (Scalar.extui (Scalar.cmpi .eq (BitVec.ofNat 32 (i 1).val) 0#32)) 0#32) = 1#1

theorem zeroCond_iff : ∀ t : Fin cfg0.N, zeroCond (grid0.coords t) ↔ t.val % 25 = 0 :=
  (by decide +kernel : ∀ t : Fin grid0.N, zeroCond (grid0.coords t) ↔ t.val % 25 = 0)

abbrev VH : View sig .tc .vmem S4000x128 .f32 := (Memref.whole cc0_stg5_0 : Memref sig .tc .vmem S4000x128 .f32).view
abbrev VS : View sig .tc .vmem S8x128 .f32 := (Memref.whole cc0_stg6_0 : Memref sig .tc .vmem S8x128 .f32).view
abbrev VQ : View sig .tc .vmem S8x128 .f32 := (Memref.whole cc0_stg7_0 : Memref sig .tc .vmem S8x128 .f32).view

abbrev mr0_0 (t : Fin cfg0.N) : Memref sig .tc .vmem S4000x128 .f32 := win0_0.stage (cfg0.slots t 0)
abbrev hmr0_0 (t : Fin cfg0.N) : (mr0_0 t).IsWhole := hstage0_0 ((cfg0.slots t 0).cast nbuf0_0)
abbrev mr0_1 (t : Fin cfg0.N) : Memref sig .tc .vmem S4000x128 .f32 := win0_1.stage (cfg0.slots t 1)
abbrev hmr0_1 (t : Fin cfg0.N) : (mr0_1 t).IsWhole := hstage0_1 ((cfg0.slots t 1).cast nbuf0_1)
abbrev mr0_2 (t : Fin cfg0.N) : Memref sig .tc .vmem S128x128 .f32 := win0_2.stage (cfg0.slots t 2)
abbrev hmr0_2 (t : Fin cfg0.N) : (mr0_2 t).IsWhole := hstage0_2 ((cfg0.slots t 2).cast nbuf0_2)
abbrev mr0_3 (t : Fin cfg0.N) : Memref sig .tc .vmem S128x128 .f32 := win0_3.stage (cfg0.slots t 3)
abbrev hmr0_3 (t : Fin cfg0.N) : (mr0_3 t).IsWhole := hstage0_3 ((cfg0.slots t 3).cast nbuf0_3)
abbrev mr0_4 (t : Fin cfg0.N) : Memref sig .tc .vmem S1x128 .f32 := win0_4.stage (cfg0.slots t 4)
abbrev hmr0_4 (t : Fin cfg0.N) : (mr0_4 t).IsWhole := hstage0_4 ((cfg0.slots t 4).cast nbuf0_4)
abbrev mr0_5 (t : Fin cfg0.N) : Memref sig .tc .vmem S4000x128 .f32 := win0_5.stage (cfg0.slots t 5)
abbrev hmr0_5 (t : Fin cfg0.N) : (mr0_5 t).IsWhole := hstage0_5 ((cfg0.slots t 5).cast nbuf0_5)
abbrev mr0_6 (t : Fin cfg0.N) : Memref sig .tc .vmem S8x128 .f32 := win0_6.stage (cfg0.slots t 6)
abbrev hmr0_6 (t : Fin cfg0.N) : (mr0_6 t).IsWhole := hstage0_6 ((cfg0.slots t 6).cast nbuf0_6)
abbrev mr0_7 (t : Fin cfg0.N) : Memref sig .tc .vmem S8x128 .f32 := win0_7.stage (cfg0.slots t 7)
abbrev hmr0_7 (t : Fin cfg0.N) : (mr0_7 t).IsWhole := hstage0_7 ((cfg0.slots t 7).cast nbuf0_7)

section Body

variable (c : Dev nD) (i : grid0.Coords)
  (arg2 : Memref sig .tc .vmem S4000x128 .f32) (harg2 : arg2.IsWhole)
  (arg3 : Memref sig .tc .vmem S4000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S1x128 .f32) (harg6 : arg6.IsWhole)
  (arg7 : Memref sig .tc .vmem S4000x128 .f32) (harg7 : arg7.IsWhole)
  (arg8 : Memref sig .tc .vmem S8x128 .f32) (harg8 : arg8.IsWhole)
  (arg9 : Memref sig .tc .vmem S8x128 .f32) (harg9 : arg9.IsWhole)
  (x0 x1 : Vec F S4000x128 .f32) (x2 x3 : Vec F S128x128 .f32) (x4 : Vec F S1x128 .f32)

local notation "𝒦" => cc0__layer1_kernel i arg2 harg2 arg3 harg3 arg4 harg4 arg5 harg5 arg6 harg6 arg7 harg7 arg8 harg8 arg9 harg9

set_option maxHeartbeats 2000000 in

noncomputable def runZero (hc : zeroCond i) :
    Σ' (Lh : List (View.Piece (Elt F) S4000x128 .f32)), Σ' (Ls : List (View.Piece (Elt F) S8x128 .f32)), { Lq : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f Lh)
                ∗ (∃ f, arg8.view.loc (c : Thread nD τ) ↦[arg8.view.set]{fullShare} arg8.view.writes (Elt F) f Ls)
                ∗ (∃ f, arg9.view.loc (c : Thread nD τ) ↦[arg9.view.set]{fullShare} arg9.view.writes (Elt F) f Lq)) -∗ K ⟨⟩))
          ⊢ wp frame (wpE (defs₀ (F := F)) Variants.none c none) E 𝒦 K } := by
  refine ⟨?_, ?_, ?_, fun E K => ?run⟩
  case run =>
    simp only [cc0__layer1_kernel_eq_skeleton]; unfold cc0__layer1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact H7

set_option maxHeartbeats 2000000 in

noncomputable def runAcc (hc : ¬zeroCond i) (xs xq : Vec F S8x128 .f32) :
    Σ' (Lh : List (View.Piece (Elt F) S4000x128 .f32)), Σ' (Ls : List (View.Piece (Elt F) S8x128 .f32)), { Lq : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xs ∗ owns (c : Thread nD τ) arg9 fullShare xq
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f Lh)
                ∗ (∃ f, arg8.view.loc (c : Thread nD τ) ↦[arg8.view.set]{fullShare} arg8.view.writes (Elt F) f Ls)
                ∗ (∃ f, arg9.view.loc (c : Thread nD τ) ↦[arg9.view.set]{fullShare} arg9.view.writes (Elt F) f Lq)) -∗ K ⟨⟩))
          ⊢ wp frame (wpE (defs₀ (F := F)) Variants.none c none) E 𝒦 K } := by
  refine ⟨?_, ?_, ?_, fun E K => ?run⟩
  case run =>
    simp only [cc0__layer1_kernel_eq_skeleton]; unfold cc0__layer1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact H7

local notation "ℛz" => runZero c i arg2 harg2 arg3 harg3 arg4 harg4 arg5 harg5 arg6 harg6 arg7 harg7 arg8 harg8 arg9 harg9 x0 x1 x2 x3 x4
local notation "ℛa" => runAcc c i arg2 harg2 arg3 harg3 arg4 harg4 arg5 harg5 arg6 harg6 arg7 harg7 arg8 harg8 arg9 harg9 x0 x1 x2 x3 x4

theorem coverZero_h (hc : zeroCond i) (y : S4000x128.Idx) : ∃ pc ∈ (ℛz hc).1, y ∈ pc.1.set :=
  View.cover_of_tiledL (ℛz hc).1 S4000x128.size (by sl_kernel_rfl) y
theorem coverZero_s (hc : zeroCond i) (y : S8x128.Idx) : ∃ pc ∈ (ℛz hc).2.1, y ∈ pc.1.set :=
  View.cover_of_tiledL (ℛz hc).2.1 S8x128.size (by sl_kernel_rfl) y
theorem coverZero_q (hc : zeroCond i) (y : S8x128.Idx) : ∃ pc ∈ (ℛz hc).2.2.1, y ∈ pc.1.set :=
  View.cover_of_tiledL (ℛz hc).2.2.1 S8x128.size (by sl_kernel_rfl) y

def leftZero (hc : zeroCond i) : Vec F S4000x128 .f32 × Vec F S8x128 .f32 × Vec F S8x128 .f32 :=
  (VH.read (Elt F) (VH.writes (Elt F) VH.junk (ℛz hc).1),
   VS.read (Elt F) (VS.writes (Elt F) VS.junk (ℛz hc).2.1),
   VQ.read (Elt F) (VQ.writes (Elt F) VQ.junk (ℛz hc).2.2.1))

theorem coverAcc_h (hc : ¬zeroCond i) (xs xq : Vec F S8x128 .f32) (y : S4000x128.Idx) : ∃ pc ∈ (ℛa hc xs xq).1, y ∈ pc.1.set :=
  View.cover_of_tiledL (ℛa hc xs xq).1 S4000x128.size (by sl_kernel_rfl) y
theorem coverAcc_s (hc : ¬zeroCond i) (xs xq : Vec F S8x128 .f32) (y : S8x128.Idx) : ∃ pc ∈ (ℛa hc xs xq).2.1, y ∈ pc.1.set :=
  View.cover_of_tiledL (ℛa hc xs xq).2.1 S8x128.size (by sl_kernel_rfl) y
theorem coverAcc_q (hc : ¬zeroCond i) (xs xq : Vec F S8x128 .f32) (y : S8x128.Idx) : ∃ pc ∈ (ℛa hc xs xq).2.2.1, y ∈ pc.1.set :=
  View.cover_of_tiledL (ℛa hc xs xq).2.2.1 S8x128.size (by sl_kernel_rfl) y

def leftAcc (hc : ¬zeroCond i) (xs xq : Vec F S8x128 .f32) : Vec F S4000x128 .f32 × Vec F S8x128 .f32 × Vec F S8x128 .f32 :=
  (VH.read (Elt F) (VH.writes (Elt F) VH.junk (ℛa hc xs xq).1),
   VS.read (Elt F) (VS.writes (Elt F) VS.junk (ℛa hc xs xq).2.1),
   VQ.read (Elt F) (VQ.writes (Elt F) VQ.junk (ℛa hc xs xq).2.2.1))

end Body

def zeroAt (c : Dev nD) (t : Fin cfg0.N) (h : t.val % 25 = 0) : Vec F S4000x128 .f32 × Vec F S8x128 .f32 × Vec F S8x128 .f32 :=
  leftZero c (grid0.coords t) (mr0_0 t) (hmr0_0 t) (mr0_1 t) (hmr0_1 t) (mr0_2 t) (hmr0_2 t) (mr0_3 t) (hmr0_3 t) (mr0_4 t) (hmr0_4 t)
    (mr0_5 t) (hmr0_5 t) (mr0_6 t) (hmr0_6 t) (mr0_7 t) (hmr0_7 t)
    (iblk0 V c 0 t) (iblk0 V c 1 t) (iblk0 V c 2 t) (iblk0 V c 3 t) (iblk0 V c 4 t) ((zeroCond_iff t).mpr h)

def stepAt (c : Dev nD) (t : Fin cfg0.N) (h : ¬t.val % 25 = 0) (xs xq : Vec F S8x128 .f32) :
    Vec F S4000x128 .f32 × Vec F S8x128 .f32 × Vec F S8x128 .f32 :=
  leftAcc c (grid0.coords t) (mr0_0 t) (hmr0_0 t) (mr0_1 t) (hmr0_1 t) (mr0_2 t) (hmr0_2 t) (mr0_3 t) (hmr0_3 t) (mr0_4 t) (hmr0_4 t)
    (mr0_5 t) (hmr0_5 t) (mr0_6 t) (hmr0_6 t) (mr0_7 t) (hmr0_7 t)
    (iblk0 V c 0 t) (iblk0 V c 1 t) (iblk0 V c 2 t) (iblk0 V c 3 t) (iblk0 V c 4 t) (fun hh => h ((zeroCond_iff t).mp hh)) xs xq

def accAt0 (c : Dev nD) : (n : ℕ) → n < cfg0.N → Vec F S4000x128 .f32 × Vec F S8x128 .f32 × Vec F S8x128 .f32
  | 0, hn => zeroAt V c ⟨0, hn⟩ (Nat.zero_mod _)
  | n + 1, hn =>
    if h0 : (n + 1) % 25 = 0 then zeroAt V c ⟨n + 1, hn⟩ h0
    else stepAt V c ⟨n + 1, hn⟩ h0 (accAt0 c n (Nat.lt_of_succ_lt hn)).2.1 (accAt0 c n (Nat.lt_of_succ_lt hn)).2.2

theorem accAt0_zero (c : Dev nD) (t : Fin cfg0.N) (h0 : t.val % 25 = 0) :
    accAt0 V c t.val t.isLt = zeroAt V c t h0 := by
  obtain ⟨n, hn⟩ := t
  cases n with
  | zero => exact rfl
  | succ n => exact (dif_pos h0).trans rfl

theorem accAt0_step (c : Dev nD) (t : Fin cfg0.N) (h0 : ¬t.val % 25 = 0) :
    accAt0 V c t.val t.isLt = stepAt V c t h0 (accAt0 V c (t.val - 1) (Nat.lt_of_le_of_lt (Nat.sub_le _ _) t.isLt)).2.1
      (accAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (accAt0 V c t.val t.isLt).1
    | ⟨6, _⟩ => (accAt0 V c t.val t.isLt).2.1
    | ⟨7, _⟩ => (accAt0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (accAt0 V c t.val t.isLt).1 := by dsimp only [dat0]
theorem after0_6 (c : Dev nD) (t : Fin cfg0.N) : (dat0 V c).after 6 t = (accAt0 V c t.val t.isLt).2.1 := by dsimp only [dat0]
theorem after0_7 (c : Dev nD) (t : Fin cfg0.N) : (dat0 V c).after 7 t = (accAt0 V c t.val t.isLt).2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

theorem before0_6_acc (c : Dev nD) (t : Fin cfg0.N) (h0 : ¬t.val % 25 = 0) (d) :
    (dat0 V c).before 6 t d = (accAt0 V c (t.val - 1) (Nat.lt_of_le_of_lt (Nat.sub_le _ _) t.isLt)).2.1 := by
  have hN : t.val < 50 := lt_of_lt_of_eq t.isLt (show cfg0.N = 50 from N_0)
  rw [Dat.before_out_kept _ 6 rfl t (by omega) (Bool.eq_false_iff.mpr fun h => by have := (flush0_6 _).mp h; dsimp only at this; omega)
    (fun _ => rfl) (fun _ _ => rfl)]
  dsimp only [dat0]

theorem before0_7_acc (c : Dev nD) (t : Fin cfg0.N) (h0 : ¬t.val % 25 = 0) (d) :
    (dat0 V c).before 7 t d = (accAt0 V c (t.val - 1) (Nat.lt_of_le_of_lt (Nat.sub_le _ _) t.isLt)).2.2 := by
  have hN : t.val < 50 := lt_of_lt_of_eq t.isLt (show cfg0.N = 50 from N_0)
  rw [Dat.before_out_kept _ 7 rfl t (by omega) (Bool.eq_false_iff.mpr fun h => by have := (flush0_7 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (mr0_0 t) fullShare ((dat0 V c).before 0 t d))
    ∗ (∃ d, owns (c : Thread nD τ) (mr0_1 t) fullShare ((dat0 V c).before 1 t d))
    ∗ (∃ d, owns (c : Thread nD τ) (mr0_2 t) fullShare ((dat0 V c).before 2 t d))
    ∗ (∃ d, owns (c : Thread nD τ) (mr0_3 t) fullShare ((dat0 V c).before 3 t d))
    ∗ (∃ d, owns (c : Thread nD τ) (mr0_4 t) fullShare ((dat0 V c).before 4 t d))
    ∗ (∃ d, owns (c : Thread nD τ) (mr0_5 t) fullShare ((dat0 V c).before 5 t d))
    ∗ (∃ d, owns (c : Thread nD τ) (mr0_6 t) fullShare ((dat0 V c).before 6 t d))
    ∗ (∃ d, owns (c : Thread nD τ) (mr0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (mr0_0 t) fullShare ((dat0 V c).after 0 t)
    ∗ owns (c : Thread nD τ) (mr0_1 t) fullShare ((dat0 V c).after 1 t)
    ∗ owns (c : Thread nD τ) (mr0_2 t) fullShare ((dat0 V c).after 2 t)
    ∗ owns (c : Thread nD τ) (mr0_3 t) fullShare ((dat0 V c).after 3 t)
    ∗ owns (c : Thread nD τ) (mr0_4 t) fullShare ((dat0 V c).after 4 t)
    ∗ owns (c : Thread nD τ) (mr0_5 t) fullShare ((dat0 V c).after 5 t)
    ∗ owns (c : Thread nD τ) (mr0_6 t) fullShare ((dat0 V c).after 6 t)
    ∗ owns (c : Thread nD τ) (mr0_7 t) fullShare ((dat0 V c).after 7 t))

set_option maxHeartbeats 1600000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  have hN : t.val < 50 := lt_of_lt_of_eq t.isLt (show cfg0.N = 50 from N_0)
  by_cases h0 : t.val % 25 = 0
  · rw [accAt0_zero V c t h0]
    unfold zeroAt leftZero; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runZero c (grid0.coords t) _ _ _ _ _ _ _ _ _ _ _ _ _ _ _ _ (iblk0 V c 0 t) (iblk0 V c 1 t) (iblk0 V c 2 t) (iblk0 V c 3 t) (iblk0 V c 4 t) ((zeroCond_iff t).mpr h0)).2.2.2 Set.univ _)
    iframe H0 H1 H2 H3 H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    iframe HΦ Ho H0 H1 H2 H3 H4
    isplitl [H5]
    · unfold owns; iexists _; isplitr
      swap; · iexact H5
      ipureintro; exact View.read_writes_of_cover _ _ _ _ _ (coverZero_h c _ _ _ _ _ _ _ _ _ _ _ _ _ _ _ _ _ _ _ _ _ _ _)
    isplitl [H6]
    · unfold owns; iexists _; isplitr
      swap; · iexact H6
      ipureintro; exact View.read_writes_of_cover _ _ _ _ _ (coverZero_s c _ _ _ _ _ _ _ _ _ _ _ _ _ _ _ _ _ _ _ _ _ _ _)
    unfold owns; iexists _; isplitr
    swap; · iexact H7
    ipureintro; exact View.read_writes_of_cover _ _ _ _ _ (coverZero_q c _ _ _ _ _ _ _ _ _ _ _ _ _ _ _ _ _ _ _ _ _ _ _)
  · rw [accAt0_step V c t h0]
    simp only [before0_6_acc V c t h0, before0_7_acc V c t h0]
    unfold stepAt leftAcc; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runAcc c (grid0.coords t) _ _ _ _ _ _ _ _ _ _ _ _ _ _ _ _ (iblk0 V c 0 t) (iblk0 V c 1 t) (iblk0 V c 2 t) (iblk0 V c 3 t) (iblk0 V c 4 t) (fun hh => h0 ((zeroCond_iff t).mp hh)) _ _).2.2.2 Set.univ _)
    iframe H0 H1 H2 H3 H4
    isplitl [H5]; · iexists _; iexact H5
    iframe H6 H7
    iintro ⟨H0, H1, H2, H3, H4, ⟨%e5, H5⟩, ⟨%e6, H6⟩, ⟨%e7, H7⟩⟩
    iframe HΦ Ho H0 H1 H2 H3 H4
    isplitl [H5]
    · unfold owns; iexists _; isplitr
      swap; · iexact H5
      ipureintro; exact View.read_writes_of_cover _ _ _ _ _ (coverAcc_h c _ _ _ _ _ _ _ _ _ _ _ _ _ _ _ _ _ _ _ _ _ _ _ _ _)
    isplitl [H6]
    · unfold owns; iexists _; isplitr
      swap; · iexact H6
      ipureintro; exact View.read_writes_of_cover _ _ _ _ _ (coverAcc_s c _ _ _ _ _ _ _ _ _ _ _ _ _ _ _ _ _ _ _ _ _ _ _ _ _)
    unfold owns; iexists _; isplitr
    swap; · iexact H7
    ipureintro; exact View.read_writes_of_cover _ _ _ _ _ (coverAcc_q c _ _ _ _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.R1.Frame.lean ====
import proofs.«416909_j55972013802026_3_alg».proof.Proof.Gen.KernelIdeal.Launch
import proofs.«416909_j55972013802026_3_alg».proof.Proof.Gen.KernelIdeal.Skeleton
import proofs.«416909_j55972013802026_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Second call: normalise, scale, shift and clamp, then the second affine layer, its column sums and sums of squares accumulated over the 25 tiles of each half. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 25 = 0 :=
  (by decide +kernel : ∀ t : Fin grid1.N, cond1_0 (grid1.coords t) ↔ t.val % 25 = 0)

abbrev VO1_7 : View sig .tc .vmem S4000x128 .f32 := (Memref.whole cc1_stg7_0 : Memref sig .tc .vmem S4000x128 .f32).view
abbrev VO1_8 : View sig .tc .vmem S8x128 .f32 := (Memref.whole cc1_stg8_0 : Memref sig .tc .vmem S8x128 .f32).view
abbrev VO1_9 : View sig .tc .vmem S8x128 .f32 := (Memref.whole cc1_stg9_0 : Memref sig .tc .vmem S8x128 .f32).view

abbrev ms1_0 (t : Fin cfg1.N) : Memref sig .tc .vmem S4000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S4000x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S8x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S8x128 .f32 := win1_9.stage (cfg1.slots t 9)
abbrev hs1_9 (t : Fin cfg1.N) : (ms1_9 t).IsWhole := hstage1_9 ((cfg1.slots t 9).cast nbuf1_9)

section Body

variable (c : Dev nD) (i : grid1.Coords) (arg2 : Memref sig .tc .vmem S4000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S4000x128 .f32) (harg9 : arg9.IsWhole) (arg10 : Memref sig .tc .vmem S8x128 .f32) (harg10 : arg10.IsWhole) (arg11 : Memref sig .tc .vmem S8x128 .f32) (harg11 : arg11.IsWhole)

section A

variable (hc0 : cond1_0 i) (x0 : Vec F S4000x128 .f32) (x1 : Vec F S1x128 .f32) (x2 : Vec F S1x128 .f32) (x3 : Vec F S1x128 .f32) (x4 : Vec F S1x128 .f32) (x5 : Vec F S128x128 .f32) (x6 : Vec F S1x128 .f32)
include hc0

set_option maxHeartbeats 4000000 in
noncomputable def kernelRun1_A :
    Σ' (L7 : List (View.Piece (Elt F) S4000x128 .f32)) (L8 : List (View.Piece (Elt F) S8x128 .f32)), { L9 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc1__layer2_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc1__layer2_kernel_eq_skeleton]; unfold cc1__layer2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact H9

theorem cover1_A_7 (y : S4000x128.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5 x6).1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5 x6).1 S4000x128.size (by sl_kernel_rfl) y

def out1_A_7 : Vec F S4000x128 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 hc0 x0 x1 x2 x3 x4 x5 x6).1)

theorem cover1_A_8 (y : S8x128.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5 x6).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5 x6).2.1 S8x128.size (by sl_kernel_rfl) y

def out1_A_8 : Vec F S8x128 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 hc0 x0 x1 x2 x3 x4 x5 x6).2.1)

theorem cover1_A_9 (y : S8x128.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5 x6).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5 x6).2.2.1 S8x128.size (by sl_kernel_rfl) y

def out1_A_9 : Vec F S8x128 .f32 :=
  VO1_9.read (Elt F) (VO1_9.writes (Elt F) VO1_9.junk (kernelRun1_A c i arg2 harg2 arg3 harg3 arg4 harg4 arg5 harg5 arg6 harg6 arg7 harg7 arg8 harg8 arg9 harg9 arg10 harg10 arg11 harg11 hc0 x0 x1 x2 x3 x4 x5 x6).2.2.1)

end A

section B

variable (hc0 : ¬cond1_0 i) (x0 : Vec F S4000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S8x128 .f32) (xo9 : Vec F S8x128 .f32)
include hc0

set_option maxHeartbeats 4000000 in
noncomputable def kernelRun1_B :
    Σ' (L7 : List (View.Piece (Elt F) S4000x128 .f32)) (L8 : List (View.Piece (Elt F) S8x128 .f32)), { L9 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ owns (c : Thread nD τ) arg10 fullShare xo8 ∗ owns (c : Thread nD τ) arg11 fullShare xo9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc1__layer2_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc1__layer2_kernel_eq_skeleton]; unfold cc1__layer2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg10.eq_unread hf8; obtain rfl := harg11.eq_unread hf9
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact H9

theorem cover1_B_7 (y : S4000x128.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 x4 x5 x6 xo8 xo9).1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 x4 x5 x6 xo8 xo9).1 S4000x128.size (by sl_kernel_rfl) y

def out1_B_7 : Vec F S4000x128 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 arg11 harg11 hc0 x0 x1 x2 x3 x4 x5 x6 xo8 xo9).1)

theorem cover1_B_8 (y : S8x128.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 x4 x5 x6 xo8 xo9).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 x4 x5 x6 xo8 xo9).2.1 S8x128.size (by sl_kernel_rfl) y

def out1_B_8 : Vec F S8x128 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 hc0 x0 x1 x2 x3 x4 x5 x6 xo8 xo9).2.1)

theorem cover1_B_9 (y : S8x128.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 x4 x5 x6 xo8 xo9).2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 x4 x5 x6 xo8 xo9).2.2.1 S8x128.size (by sl_kernel_rfl) y

def out1_B_9 : Vec F S8x128 .f32 :=
  VO1_9.read (Elt F) (VO1_9.writes (Elt F) VO1_9.junk (kernelRun1_B c i arg2 harg2 arg3 harg3 arg4 harg4 arg5 harg5 arg6 harg6 arg7 harg7 arg8 harg8 arg9 harg9 arg10 harg10 arg11 harg11 hc0 x0 x1 x2 x3 x4 x5 x6 xo8 xo9).2.2.1)

end B

end Body

def outs1_A (c : Dev nD) (t : Fin cfg1.N) (h0 : t.val % 25 = 0) : Vec F S4000x128 .f32 × Vec F S8x128 .f32 × Vec F S8x128 .f32 :=
  (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t),
       out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t),
       out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t))

def outs1_B (c : Dev nD) (t : Fin cfg1.N) (h0 : ¬t.val % 25 = 0) (xo8 xo9 : Vec F S8x128 .f32) : Vec F S4000x128 .f32 × Vec F S8x128 .f32 × Vec F S8x128 .f32 :=
  (out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) xo8 xo9,
       out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) xo8 xo9,
       out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) xo8 xo9)

def outsAt1 (c : Dev nD) : (n : ℕ) → n < cfg1.N → Vec F S4000x128 .f32 × Vec F S8x128 .f32 × Vec F S8x128 .f32
  | 0, hn => outs1_A V c ⟨0, hn⟩ (Nat.zero_mod _)
  | n + 1, hn =>
    if h0 : (n + 1) % 25 = 0 then outs1_A V c ⟨n + 1, hn⟩ h0
    else outs1_B V c ⟨n + 1, hn⟩ h0 (outsAt1 c n (Nat.lt_of_succ_lt hn)).2.1 (outsAt1 c n (Nat.lt_of_succ_lt hn)).2.2

theorem outsAt1_A (c : Dev nD) (t : Fin cfg1.N) (h0 : t.val % 25 = 0) : outsAt1 V c t.val t.isLt = outs1_A V c t h0 := by
  obtain ⟨n, hn⟩ := t
  cases n with
  | zero => exact rfl
  | succ n => exact (dif_pos h0).trans rfl

theorem outsAt1_B (c : Dev nD) (t : Fin cfg1.N) (h0 : ¬t.val % 25 = 0) :
    outsAt1 V c t.val t.isLt = outs1_B V c t h0 (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2.1
    | ⟨9, _⟩ => (outsAt1 V c t.val t.isLt).2.2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem after1_8 (c : Dev nD) (t : Fin cfg1.N) : (dat1 V c).after 8 t = (outsAt1 V c t.val t.isLt).2.1 := by dsimp only [dat1]
theorem after1_9 (c : Dev nD) (t : Fin cfg1.N) : (dat1 V c).after 9 t = (outsAt1 V c t.val t.isLt).2.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

theorem before1_8_B (c : Dev nD) (t : Fin cfg1.N) (h0 : ¬t.val % 25 = 0) (d) :
    (dat1 V c).before 8 t d = (outsAt1 V c (t.val - 1) (Nat.lt_of_le_of_lt (Nat.sub_le _ _) t.isLt)).2.1 := by
  have hN : t.val < 50 := lt_of_lt_of_eq t.isLt (show cfg1.N = 50 from N_1)
  rw [Dat.before_out_kept _ 8 rfl t (by omega) (Bool.eq_false_iff.mpr fun h => by have := (flush1_8 _).mp h; dsimp only at this; omega)
    (fun _ => rfl) (fun _ _ => rfl)]
  dsimp only [dat1]
theorem before1_9_B (c : Dev nD) (t : Fin cfg1.N) (h0 : ¬t.val % 25 = 0) (d) :
    (dat1 V c).before 9 t d = (outsAt1 V c (t.val - 1) (Nat.lt_of_le_of_lt (Nat.sub_le _ _) t.isLt)).2.2 := by
  have hN : t.val < 50 := lt_of_lt_of_eq t.isLt (show cfg1.N = 50 from N_1)
  rw [Dat.before_out_kept _ 9 rfl t (by omega) (Bool.eq_false_iff.mpr fun h => by have := (flush1_9 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

set_option maxHeartbeats 4000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  have hN : t.val < 50 := lt_of_lt_of_eq t.isLt (show cfg1.N = 50 from N_1)
  by_cases h0 : t.val % 25 = 0
  · rw [outsAt1_A V c t h0]
    dsimp only [outs1_A]
    unfold out1_A_7 out1_A_8 out1_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun1_A c (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t)).2.2.2 Set.univ _)
    iframe H0 H1 H2 H3 H4 H5 H6
    isplitl [H7]; · iexists _; iexact H7
    isplitl [H8]; · iexists _; iexact H8
    isplitl [H9]; · iexists _; iexact H9
    iintro ⟨H0, H1, H2, H3, H4, H5, H6, ⟨%e7, H7⟩, ⟨%e8, H8⟩, ⟨%e9, H9⟩⟩
    iframe HΦ Ho H0 H1 H2 H3 H4 H5 H6
    isplitl [H7]
    · unfold owns; iexists _; isplitr
      swap; · iexact H7
      ipureintro; exact View.read_writes_of_cover _ _ _ _ _ (cover1_A_7 c _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover1_A_8 c _ _ _ _ _ _ _ _ _ _ _ _ _ _ _ _ _ _ _ _ _ _ _ _ _ _ _ _ _)
    unfold owns; iexists _; isplitr
    swap; · iexact H9
    ipureintro; exact View.read_writes_of_cover _ _ _ _ _ (cover1_A_9 c _ _ _ _ _ _ _ _ _ _ _ _ _ _ _ _ _ _ _ _ _ _ _ _ _ _ _ _ _)
  · rw [outsAt1_B V c t h0]
    simp only [before1_8_B V c t h0, before1_9_B V c t h0]
    dsimp only [outs1_B]
    unfold out1_B_7 out1_B_8 out1_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun1_B c (grid1.coords t) _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) _ _).2.2.2 Set.univ _)
    iframe H0 H1 H2 H3 H4 H5 H6
    isplitl [H7]; · iexists _; iexact H7
    iframe H8 H9
    iintro ⟨H0, H1, H2, H3, H4, H5, H6, ⟨%e7, H7⟩, ⟨%e8, H8⟩, ⟨%e9, H9⟩⟩
    iframe HΦ Ho H0 H1 H2 H3 H4 H5 H6
    isplitl [H7]
    · unfold owns; iexists _; isplitr
      swap; · iexact H7
      ipureintro; exact View.read_writes_of_cover _ _ _ _ _ (cover1_B_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover1_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover1_B_9 c _ _ _ _ _ _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.R2.Frame.lean ====
import proofs.«416909_j55972013802026_3_alg».proof.Proof.Gen.KernelIdeal.Launch
import proofs.«416909_j55972013802026_3_alg».proof.Proof.Gen.KernelIdeal.Skeleton
import proofs.«416909_j55972013802026_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Third call: the second normalisation, pointwise on each tile. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S4000x128 := Rect.unit (s := S4000x128) ![0, 0] S4000x128.size inb_S4000x128_S4000x128_0_0

abbrev r2_1 : Rect S1x128 := Rect.unit (s := S1x128) ![0, 0] S1x128.size inb_S1x128_S1x128_0_0

def out2_5 (x0 : Vec F S4000x128 .f32) (x1 : Vec F S1x128 .f32) (x2 : Vec F S1x128 .f32) (x3 : Vec F S1x128 .f32) (x4 : Vec F S1x128 .f32) : Vec F S4000x128 .f32 :=
  View.canon [⟨r2_0, k2_pay1 (View.ld x0 r2_0) (View.ld x4 r2_1) (View.ld x3 r2_1) (View.ld x1 r2_1) (View.ld x2 r2_1)⟩]

theorem cover2_5 (p0 : Vec F S4000x128 .f32) (y : S4000x128.Idx) :
    ∃ pc ∈ ([⟨r2_0, p0⟩] : List (View.Piece (Elt F) S4000x128 .f32)), y ∈ pc.1.set :=
  View.cover_of_tiled [⟨r2_0, p0⟩] S4000x128.size (by rfl) y

set_option maxHeartbeats 1000000 in

theorem sound_kernel2 (c : Dev nD) (E : Set ℕ) (i : grid2.Coords) (arg1 : Memref sig .tc .vmem S4000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S4000x128 .f32) (harg6 : arg6.IsWhole)
    (x0 : Vec F S4000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__layer3_kernel i arg1 harg1 arg2 harg2 arg3 harg3 arg4 harg4 arg5 harg5 arg6 harg6) K := by
  simp only [cc2__layer3_kernel_eq_skeleton]; unfold cc2__layer3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  iframe H0 H1 H2 H3 H4
  isplitl [H5]; · iexists _; iexact H5
  iintro ⟨H0, H1, H2, H3, H4, H5⟩
  iframe

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Fold.lean ====
import proofs.«416909_j55972013802026_3_alg».proof.Proof.KI.R0.Frame
import proofs.«416909_j55972013802026_3_alg».proof.Proof.KI.R1.Frame
import proofs.«416909_j55972013802026_3_alg».proof.Proof.KI.R2.Frame
import proofs.«416909_j55972013802026_3_alg».proof.Proof.Gen.KernelIdeal.Regions
import proofs.«416909_j55972013802026_3_alg».proof.Proof.Gen.KernelIdeal.Launch
import proofs.«416909_j55972013802026_3_alg».proof.Proof.Gen.KernelIdeal.Skeleton
import proofs.«416909_j55972013802026_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The arrays after each of the program's ten items, as a fold, and what each item leaves unchanged. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)

abbrev W2 : Dev nD → Valuation τ sig (Elt F) := fun c => StableHlo.after hostOps0_1 (W1 m c)

abbrev W3 : Dev nD → Valuation τ sig (Elt F) := fun c => StableHlo.after hostOps0_2 (W2 m c)

abbrev W4 : Dev nD → Valuation τ sig (Elt F) := fun c => StableHlo.after hostOps0_3 (W3 m c)

abbrev V4 : (c : Dev nD) → (b : Ref sig .tc) → Buf (Elt F) ((c : Thread nD τ).loc b) := fun c b => W4 m c b

def W5 (c : Dev nD) : Valuation τ sig (Elt F) :=
  Pipeline.withArrays spec0 c (W4 m c) fun w => (dat0 (V4 m) c).arrAt w cfg0.N
theorem W5_arr (c : Dev nD) (w : Fin cfg0.W) :
    W5 m c (Proc.devRef .tc (Pipeline.arrRef spec0 w)) = (dat0 (V4 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = W4 m c (Proc.devRef .tc b) := by
  unfold W5; exact Pipeline.withArrays_of_ne spec0 c _ _ b hb

abbrev V5 : (c : Dev nD) → (b : Ref sig .tc) → Buf (Elt F) ((c : Thread nD τ).loc b) := fun c b => W5 m c b
theorem hF0 (c : Dev nD) (w : Fin cfg0.W) : (dat0 (V4 m) c).arrAt w cfg0.N = V5 m c (Pipeline.arrRef spec0 w) :=
  (W5_arr m c w).symm
theorem hrest0 (c : Dev nD) : ∀ b, b ∉ Finset.univ.image (Pipeline.arrRef spec0) → V5 m c b = V4 m c b :=
  fun b hb => W5_of_ne m c b fun w e => hb (Finset.mem_image.mpr ⟨w, Finset.mem_univ _, e⟩)

abbrev W6 : Dev nD → Valuation τ sig (Elt F) := fun c => StableHlo.after hostOps1 (W5 m c)
abbrev V6 : (c : Dev nD) → (b : Ref sig .tc) → Buf (Elt F) ((c : Thread nD τ).loc b) := fun c b => W6 m c b

def W7 (c : Dev nD) : Valuation τ sig (Elt F) :=
  Pipeline.withArrays spec1 c (W6 m c) fun w => (dat1 (V6 m) c).arrAt w cfg1.N
theorem W7_arr (c : Dev nD) (w : Fin cfg1.W) :
    W7 m c (Proc.devRef .tc (Pipeline.arrRef spec1 w)) = (dat1 (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev V7 : (c : Dev nD) → (b : Ref sig .tc) → Buf (Elt F) ((c : Thread nD τ).loc b) := fun c b => W7 m c b
theorem hF1 (c : Dev nD) (w : Fin cfg1.W) : (dat1 (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => W7_of_ne m c b fun w e => hb (Finset.mem_image.mpr ⟨w, Finset.mem_univ _, e⟩)

abbrev W8 : Dev nD → Valuation τ sig (Elt F) := fun c => StableHlo.after hostOps2 (W7 m c)
abbrev V8 : (c : Dev nD) → (b : Ref sig .tc) → Buf (Elt F) ((c : Thread nD τ).loc b) := fun c b => W8 m c b

def W9 (c : Dev nD) : Valuation τ sig (Elt F) :=
  Pipeline.withArrays spec2 c (W8 m c) fun w => (dat2 (V8 m) c).arrAt w cfg2.N
theorem W9_arr (c : Dev nD) (w : Fin cfg2.W) :
    W9 m c (Proc.devRef .tc (Pipeline.arrRef spec2 w)) = (dat2 (V8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
abbrev V9 : (c : Dev nD) → (b : Ref sig .tc) → Buf (Elt F) ((c : Thread nD τ).loc b) := fun c b => W9 m c b
theorem hF2 (c : Dev nD) (w : Fin cfg2.W) : (dat2 (V8 m) c).arrAt w cfg2.N = V9 m c (Pipeline.arrRef spec2 w) :=
  (W9_arr m c w).symm
theorem hrest2 (c : Dev nD) : ∀ b, b ∉ Finset.univ.image (Pipeline.arrRef spec2) → V9 m c b = V8 m c b :=
  fun b hb => W9_of_ne m c b fun w e => hb (Finset.mem_image.mpr ⟨w, Finset.mem_univ _, e⟩)

abbrev W10 : Dev nD → Valuation τ sig (Elt F) := fun c => StableHlo.after hostOps3 (W9 m c)

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W3_of (c : Dev nD) (r : Ref sig .tc) (h : r ∉ hostOps0_2_W) : W3 m c r = W2 m c r :=
  StableHlo.after_of_writes_sub hostOps0_2 _ hostOps0_2_writes h
theorem W4_of (c : Dev nD) (r : Ref sig .tc) (h : r ∉ hostOps0_3_W) : W4 m c r = W3 m c r :=
  StableHlo.after_of_writes_sub hostOps0_3 _ hostOps0_3_writes h
theorem W6_of (c : Dev nD) (r : Ref sig .tc) (h : r ∉ hostOps1_W) : W6 m c r = W5 m c r :=
  StableHlo.after_of_writes_sub hostOps1 _ hostOps1_writes h
theorem W8_of (c : Dev nD) (r : Ref sig .tc) (h : r ∉ hostOps2_W) : W8 m c r = W7 m c r :=
  StableHlo.after_of_writes_sub hostOps2 _ hostOps2_writes h
theorem W10_of (c : Dev nD) (r : Ref sig .tc) (h : r ∉ hostOps3_W) : W10 m c r = W9 m c r :=
  StableHlo.after_of_writes_sub hostOps3 _ hostOps3_writes h
theorem W5_of (c : Dev nD) (r : Ref sig .tc) (h : ∀ w, Pipeline.arrRef spec0 w ≠ r) : W5 m c r = W4 m c r :=
  W5_of_ne m c r h
theorem W7_of (c : Dev nD) (r : Ref sig .tc) (h : ∀ w, Pipeline.arrRef spec1 w ≠ r) : W7 m c r = W6 m c r :=
  W7_of_ne m c r h
theorem W9_of (c : Dev nD) (r : Ref sig .tc) (h : ∀ w, Pipeline.arrRef spec2 w ≠ r) : W9 m c r = W8 m c r :=
  W9_of_ne m c r h

abbrev argRefs : List (Ref sig .tc) :=
  [main_arg0, main_arg1, main_arg2, main_arg3, main_arg4, main_arg5, main_arg6, main_arg7, main_arg8, main_arg9]

theorem arg_not_hostOps0 : ∀ r ∈ argRefs, r ∉ hostOps0_W := by decide
theorem arg_not_hostOps0_1 : ∀ r ∈ argRefs, r ∉ hostOps0_1_W := by decide
theorem arg_not_hostOps0_2 : ∀ r ∈ argRefs, r ∉ hostOps0_2_W := by decide
theorem arg_not_hostOps0_3 : ∀ r ∈ argRefs, r ∉ hostOps0_3_W := by decide
theorem arg_not_hostOps1 : ∀ r ∈ argRefs, r ∉ hostOps1_W := by decide
theorem arg_not_hostOps2 : ∀ r ∈ argRefs, r ∉ hostOps2_W := by decide
theorem arg_not_hostOps3 : ∀ r ∈ argRefs, r ∉ hostOps3_W := by decide
theorem arg_not_spec0 : ∀ r ∈ argRefs, ∀ w, Pipeline.arrRef spec0 w ≠ r := by decide
theorem arg_not_spec1 : ∀ r ∈ argRefs, ∀ w, Pipeline.arrRef spec1 w ≠ r := by decide
theorem arg_not_spec2 : ∀ r ∈ argRefs, ∀ w, Pipeline.arrRef spec2 w ≠ r := by decide

theorem W1_arg (c : Dev nD) {r : Ref sig .tc} (h : r ∈ argRefs) : W1 m c r = m ((c : Thread nD τ).loc r) :=
  (W1_of m c r (arg_not_hostOps0 r h)).trans rfl
theorem W2_arg (c : Dev nD) {r : Ref sig .tc} (h : r ∈ argRefs) : W2 m c r = m ((c : Thread nD τ).loc r) :=
  (W2_of m c r (arg_not_hostOps0_1 r h)).trans (W1_arg m c h)
theorem W3_arg (c : Dev nD) {r : Ref sig .tc} (h : r ∈ argRefs) : W3 m c r = m ((c : Thread nD τ).loc r) :=
  (W3_of m c r (arg_not_hostOps0_2 r h)).trans (W2_arg m c h)
theorem W4_arg (c : Dev nD) {r : Ref sig .tc} (h : r ∈ argRefs) : W4 m c r = m ((c : Thread nD τ).loc r) :=
  (W4_of m c r (arg_not_hostOps0_3 r h)).trans (W3_arg m c h)
theorem W5_arg (c : Dev nD) {r : Ref sig .tc} (h : r ∈ argRefs) : W5 m c r = m ((c : Thread nD τ).loc r) :=
  (W5_of m c r (arg_not_spec0 r h)).trans (W4_arg m c h)
theorem W6_arg (c : Dev nD) {r : Ref sig .tc} (h : r ∈ argRefs) : W6 m c r = m ((c : Thread nD τ).loc r) :=
  (W6_of m c r (arg_not_hostOps1 r h)).trans (W5_arg m c h)
theorem W7_arg (c : Dev nD) {r : Ref sig .tc} (h : r ∈ argRefs) : W7 m c r = m ((c : Thread nD τ).loc r) :=
  (W7_of m c r (arg_not_spec1 r h)).trans (W6_arg m c h)
theorem W8_arg (c : Dev nD) {r : Ref sig .tc} (h : r ∈ argRefs) : W8 m c r = m ((c : Thread nD τ).loc r) :=
  (W8_of m c r (arg_not_hostOps2 r h)).trans (W7_arg m c h)
theorem W9_arg (c : Dev nD) {r : Ref sig .tc} (h : r ∈ argRefs) : W9 m c r = m ((c : Thread nD τ).loc r) :=
  (W9_of m c r (arg_not_spec2 r h)).trans (W8_arg m c h)
theorem W10_arg (c : Dev nD) {r : Ref sig .tc} (h : r ∈ argRefs) : W10 m c r = m ((c : Thread nD τ).loc r) :=
  (W10_of m c r (arg_not_hostOps3 r h)).trans (W9_arg m c h)

theorem W10_main_arg0 (c : Dev nD) : W10 m c main_arg0 = m ((c : Thread nD τ).loc main_arg0) := W10_arg m c (by decide)
theorem W10_main_arg1 (c : Dev nD) : W10 m c main_arg1 = m ((c : Thread nD τ).loc main_arg1) := W10_arg m c (by decide)
theorem W10_main_arg2 (c : Dev nD) : W10 m c main_arg2 = m ((c : Thread nD τ).loc main_arg2) := W10_arg m c (by decide)
theorem W10_main_arg3 (c : Dev nD) : W10 m c main_arg3 = m ((c : Thread nD τ).loc main_arg3) := W10_arg m c (by decide)
theorem W10_main_arg4 (c : Dev nD) : W10 m c main_arg4 = m ((c : Thread nD τ).loc main_arg4) := W10_arg m c (by decide)
theorem W10_main_arg5 (c : Dev nD) : W10 m c main_arg5 = m ((c : Thread nD τ).loc main_arg5) := W10_arg m c (by decide)
theorem W10_main_arg6 (c : Dev nD) : W10 m c main_arg6 = m ((c : Thread nD τ).loc main_arg6) := W10_arg m c (by decide)
theorem W10_main_arg7 (c : Dev nD) : W10 m c main_arg7 = m ((c : Thread nD τ).loc main_arg7) := W10_arg m c (by decide)
theorem W10_main_arg8 (c : Dev nD) : W10 m c main_arg8 = m ((c : Thread nD τ).loc main_arg8) := W10_arg m c (by decide)
theorem W10_main_arg9 (c : Dev nD) : W10 m c main_arg9 = m ((c : Thread nD τ).loc main_arg9) := W10_arg m c (by decide)

theorem W2_main_v1 (c : Dev nD) : W2 m c main_v1 = W1 m c main_v1 := W2_of m c main_v1 (by decide)
theorem W3_main_v1 (c : Dev nD) : W3 m c main_v1 = W1 m c main_v1 := (W3_of m c main_v1 (by decide)).trans (W2_main_v1 m c)
theorem W4_main_v1 (c : Dev nD) : W4 m c main_v1 = W1 m c main_v1 := (W4_of m c main_v1 (by decide)).trans (W3_main_v1 m c)
theorem W5_main_v1 (c : Dev nD) : W5 m c main_v1 = W1 m c main_v1 := (W5_of m c main_v1 (by decide)).trans (W4_main_v1 m c)
theorem W6_main_v1 (c : Dev nD) : W6 m c main_v1 = W1 m c main_v1 := (W6_of m c main_v1 (by decide)).trans (W5_main_v1 m c)
theorem W7_main_v1 (c : Dev nD) : W7 m c main_v1 = W1 m c main_v1 := (W7_of m c main_v1 (by decide)).trans (W6_main_v1 m c)
theorem W8_main_v1 (c : Dev nD) : W8 m c main_v1 = W1 m c main_v1 := (W8_of m c main_v1 (by decide)).trans (W7_main_v1 m c)
theorem W9_main_v1 (c : Dev nD) : W9 m c main_v1 = W1 m c main_v1 := (W9_of m c main_v1 (by decide)).trans (W8_main_v1 m c)

theorem W2_main_v3 (c : Dev nD) : W2 m c main_v3 = W1 m c main_v3 := W2_of m c main_v3 (by decide)

theorem W3_main_v4 (c : Dev nD) : W3 m c main_v4 = W2 m c main_v4 := W3_of m c main_v4 (by decide)

theorem W6_of4 (c : Dev nD) (r : Ref sig .tc) (h5 : ∀ w, Pipeline.arrRef spec0 w ≠ r) (h6 : r ∉ hostOps1_W) : W6 m c r = W4 m c r :=
  (W6_of m c r h6).trans (W5_of m c r h5)

theorem W8_of4 (c : Dev nD) (r : Ref sig .tc) (h5 : ∀ w, Pipeline.arrRef spec0 w ≠ r) (h6 : r ∉ hostOps1_W)
    (h7 : ∀ w, Pipeline.arrRef spec1 w ≠ r) (h8 : r ∉ hostOps2_W) : W8 m c r = W4 m c r :=
  (W8_of m c r h8).trans ((W7_of m c r h7).trans (W6_of4 m c r h5 h6))

theorem W6_main_v35 (c : Dev nD) : W6 m c main_v35 = W4 m c main_v35 := W6_of4 m c main_v35 (by decide) (by decide)
theorem W6_main_v39 (c : Dev nD) : W6 m c main_v39 = W4 m c main_v39 := W6_of4 m c main_v39 (by decide) (by decide)
theorem W6_main_v27 (c : Dev nD) : W6 m c main_v27 = W4 m c main_v27 := W6_of4 m c main_v27 (by decide) (by decide)
theorem W6_main_v43 (c : Dev nD) : W6 m c main_v43 = W4 m c main_v43 := W6_of4 m c main_v43 (by decide) (by decide)
theorem W8_main_v47 (c : Dev nD) : W8 m c main_v47 = W4 m c main_v47 := W8_of4 m c main_v47 (by decide) (by decide) (by decide) (by decide)
theorem W8_main_v51 (c : Dev nD) : W8 m c main_v51 = W4 m c main_v51 := W8_of4 m c main_v51 (by decide) (by decide) (by decide) (by decide)
theorem W6_main_v52_0 (c : Dev nD) : W6 m c main_v52_0 = W5 m c main_v52_0 := W6_of m c main_v52_0 (by decide)

theorem W8_main_v79_0 (c : Dev nD) : W8 m c main_v79_0 = W7 m c main_v79_0 := W8_of m c main_v79_0 (by decide)

end Cert.KernelIdeal.Fr

end
-- ==== Proof.KI.Run.lean ====
import proofs.«416909_j55972013802026_3_alg».proof.Proof.KI.Fold

/-! The program's run as ten items over one thread state: its result, and its frame. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def pdats : (p : Fin 3) → (c : Dev nD) → Dat τ (Elt F) Unit ℕ (UR sig nD τ) ℕ (Pipeline.pin (pcfgs (F := F)) adm p) c
  | ⟨0, _⟩ => fun c => dat0 (V4 m) c
  | ⟨1, _⟩ => fun c => dat1 (V6 m) c
  | ⟨2, _⟩ => fun c => dat2 (V8 m) c
  | ⟨_ + 3, h⟩ => absurd h (Nat.not_lt.2 (Nat.le_add_left _ _))
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W10 m c) ∗ ∃ r, prngReg c r)

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m) c).loose
  hwaits := Pipeline.hwaits_of_owed_zero _ _ _ _ L lv 0 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (V4 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V4 m c) (V5 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (V7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (V8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V8 m c) (V9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg0 m),
    .host (hseg hostOps1 hostOps1_sub hostOps1_fresh (W5 m)),
    .region (reg1 m),
    .host (hseg hostOps2 hostOps2_sub hostOps2_fresh (W7 m)),
    .region (reg2 m),
    .host (hseg hostOps3 hostOps3_sub hostOps3_fresh (W9 m)) ]

theorem main_run (c : Dev nD) : main (F := F) c = Pipeline.Seg.run (segs m) := by
  rw [main_chain c, Pipeline.Seg.run_eq_chain]
  rfl

set_option backward.isDefEq.respectTransparency.types false in

theorem run_post (ρ : Dev nD → PrngReg) {Q : PUnit × MemSt nD τ sig (Elt F) → Prop}
    (hQ : ∀ s : MemSt nD τ sig (Elt F), (∀ c : Dev nD, ∀ b ∈ Pipeline.ucRefs τ sig, s.mem ((c : Thread nD τ).1, b) = W10 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W10 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := hQ)

theorem result_run (ρ : Dev nD → PrngReg) : θ_run defs (onTc (τ := τ) (main (F := F))) ⟨m, fun _ => 0, ρ⟩ (fun r => ∀ c : Dev nD,
      r.2.mem ((c.tc : Thread nD τ).loc main_v110) = W10 m c main_v110
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_post m ρ fun s h c =>
    ⟨h c _ (mem_uc main_v110 (by decide)),
     (h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c),
     (h c _ (mem_uc main_arg4 (by decide))).trans (W10_main_arg4 m c),
     (h c _ (mem_uc main_arg5 (by decide))).trans (W10_main_arg5 m c),
     (h c _ (mem_uc main_arg6 (by decide))).trans (W10_main_arg6 m c),
     (h c _ (mem_uc main_arg7 (by decide))).trans (W10_main_arg7 m c),
     (h c _ (mem_uc main_arg8 (by decide))).trans (W10_main_arg8 m c),
     (h c _ (mem_uc main_arg9 (by decide))).trans (W10_main_arg9 m c)⟩

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (result_run m ρ)

end Cert.KernelIdeal.Fr

end
-- ==== Proof.RefSide.lean ====
import proofs.«416909_j55972013802026_3_alg».proof.Defs
import proofs.«416909_j55972013802026_3_alg».proof.Proof.Gen.ReferenceIdeal
import proofs.«416909_j55972013802026_3_alg».proof.Proof.Gen.Pre_finite_inputs
import proofs.«416909_j55972013802026_3_alg».proof.Proof.RefRun
import proofs.«416909_j55972013802026_3_alg».proof.Proof.RefRead

/-! The reference's frame is its run with the result dropped. -/

noncomputable section

open Idealize.ShloMosaic Idealize.ShloMosaic.TcCoe Idealize.SL.Sem

namespace Cert.Proof.Parts

theorem frame_ri : Cert.frame_ReferenceIdeal := fun m ρ _ =>
  (θ_run Cert.ReferenceIdeal.defs _ _).mono (fun _ h c => (h c).2) (Cert.ReferenceIdeal.ValueP.run (F := Ideal) m ρ)

end Cert.Proof.Parts

end
-- ==== Proof.Spec.lean ====
import Idealize.ShloMosaic.PureOps.Ideal
import Idealize.ShloMosaic.PureOps.Ideal.Laws
import Idealize.ShloMosaic.Lib.ValueIdx

/-! The edge network written twice: per edge (800000 rows of 32 channels), and packed four edges to a row of 128 with block-diagonal weights and the variance as mean of squares minus squared mean. -/

noncomputable section

open scoped BigOperators

namespace EdgeNet

open Idealize.ShloMosaic

abbrev cN : EReal := Ideal.ofBits .f32 0x49435000#32

abbrev cEps : EReal := Ideal.ofBits .f32 0x3727C5AC#32

abbrev c0 : EReal := Ideal.ofBits .f32 0x00000000#32

section
variable (xr xc : Fin 800000 → Fin 32 → EReal) (W1 : Fin 64 → Fin 32 → EReal) (b1 g1 be1 : Fin 32 → EReal)
  (W2 : Fin 32 → Fin 32 → EReal) (b2 g2 be2 : Fin 32 → EReal)

def cat (e : Fin 800000) (k : Fin 64) : EReal :=
  if h : k.val < 32 then xr e ⟨k.val, h⟩ else xc e ⟨k.val - 32, by have := k.isLt; omega⟩

def lin1 (e : Fin 800000) (j : Fin 32) : EReal := (∑ k : Fin 64, cat xr xc e k * W1 k j) + b1 j

def colMean (h : Fin 800000 → Fin 32 → EReal) (j : Fin 32) : EReal := Ideal.div (c0 + ∑ e : Fin 800000, h e j) cN

def colVar (h : Fin 800000 → Fin 32 → EReal) (j : Fin 32) : EReal :=
  Ideal.div (c0 + ∑ e : Fin 800000, (h e j - colMean h j) * (h e j - colMean h j)) cN

def bnRelu (h : Fin 800000 → Fin 32 → EReal) (g be : Fin 32 → EReal) (e : Fin 800000) (j : Fin 32) : EReal :=
  max ((h e j - colMean h j) * Ideal.rsqrt (colVar h j + cEps) * g j + be j) c0

def lin2 (a : Fin 800000 → Fin 32 → EReal) (e : Fin 800000) (j : Fin 32) : EReal := (∑ k : Fin 32, a e k * W2 k j) + b2 j

def refOut (e : Fin 800000) (j : Fin 32) : EReal :=
  bnRelu (lin2 W2 b2 (bnRelu (lin1 xr xc W1 b1) g1 be1)) g2 be2 e j

def pk (f : Fin 800000 → Fin 32 → EReal) (p : Fin 200000) (q : Fin 128) : EReal :=
  f ⟨4 * p.val + q.val / 32, by have := p.isLt; have := q.isLt; omega⟩ ⟨q.val % 32, Nat.mod_lt _ (by decide)⟩

def bd (w : Fin 32 → Fin 32 → EReal) (r s : Fin 128) : EReal :=
  if r.val / 32 = s.val / 32 then w ⟨r.val % 32, Nat.mod_lt _ (by decide)⟩ ⟨s.val % 32, Nat.mod_lt _ (by decide)⟩ else c0

def tl (v : Fin 32 → EReal) (q : Fin 128) : EReal := v ⟨q.val % 32, Nat.mod_lt _ (by decide)⟩

def W1a (k j : Fin 32) : EReal := W1 ⟨k.val, by have := k.isLt; omega⟩ j
def W1b (k j : Fin 32) : EReal := W1 ⟨k.val + 32, by have := k.isLt; omega⟩ j

def klin1 (p : Fin 200000) (q : Fin 128) : EReal :=
  (∑ k : Fin 128, pk xr p k * bd (W1a W1) k q) + (∑ k : Fin 128, pk xc p k * bd (W1b W1) k q) + tl b1 q

def tileSum (f : Fin 200000 → Fin 128 → EReal) (j : Fin 2) (q : Fin 128) : EReal :=
  ∑ i : Fin 25, ∑ r : Fin 4000, f ⟨4000 * (25 * j.val + i.val) + r.val, by have := j.isLt; have := i.isLt; have := r.isLt; omega⟩ q

def chanSum (a : Fin 2 → Fin 128 → EReal) (j : Fin 32) : EReal :=
  c0 + ∑ c : Fin 4, (a 0 ⟨32 * c.val + j.val, by have := c.isLt; have := j.isLt; omega⟩
                    + a 1 ⟨32 * c.val + j.val, by have := c.isLt; have := j.isLt; omega⟩)

def kMean (f : Fin 200000 → Fin 128 → EReal) (j : Fin 32) : EReal := Ideal.div (chanSum (tileSum f) j) cN

def kVar (f : Fin 200000 → Fin 128 → EReal) (j : Fin 32) : EReal :=
  max (Ideal.div (chanSum (tileSum fun p q => f p q * f p q) j) cN - kMean f j * kMean f j) c0

def kBnRelu (f : Fin 200000 → Fin 128 → EReal) (g be : Fin 32 → EReal) (p : Fin 200000) (q : Fin 128) : EReal :=
  max ((f p q - tl (kMean f) q) * Ideal.rsqrt (tl (kVar f) q + cEps) * tl g q + tl be q) c0

def klin2 (a : Fin 200000 → Fin 128 → EReal) (p : Fin 200000) (q : Fin 128) : EReal :=
  (∑ k : Fin 128, a p k * bd W2 k q) + tl b2 q

def kerOut (p : Fin 200000) (q : Fin 128) : EReal :=
  kBnRelu (klin2 W2 b2 (kBnRelu (klin1 xr xc W1 b1) g1 be1)) g2 be2 p q

end

def cur2 {n0 n1 : ℕ} (v : (⟨2, ![n0, n1]⟩ : Shape).Idx → EReal) (a : Fin n0) (b : Fin n1) : EReal := v (ValueIdx.ix2 a b)
def cur1 {n : ℕ} (v : (⟨1, ![n]⟩ : Shape).Idx → EReal) (a : Fin n) : EReal := v (ValueIdx.ix1 a)

def Fin2 {m n : ℕ} (f : Fin m → Fin n → EReal) : Prop := ∀ a b, ∃ r : ℝ, f a b = (r : EReal)
def Fin1 {n : ℕ} (f : Fin n → EReal) : Prop := ∀ a, ∃ r : ℝ, f a = (r : EReal)

end EdgeNet

end
-- ==== Proof.KI.HostMid.lean ====
import proofs.«416909_j55972013802026_3_alg».proof.Proof.Gen.KernelIdeal.Launch
import proofs.«416909_j55972013802026_3_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

/-! Between the calls: the two halves' sums are added, summed over the four column groups and divided by the edge count, giving each channel's mean and its clamped variance, tiled to a row of 128. -/

set_option maxRecDepth 16384

noncomputable section

namespace Cert.KernelIdeal.Fr

open Cert.KernelIdeal Cert.KernelIdeal.Gen
open Idealize.ShloMosaic Idealize.ShloMosaic.TcCoe
open Idealize.ShloMosaic.ValueIdx
open scoped BigOperators

variable (W : Valuation τ sig (Elt Ideal))

def chanSums (s : Vec Ideal S16x128 .f32) : Vec Ideal S32 .f32 :=
  Host.reduceAdd (F := Ideal)
    (shapeCast S4x32 (addf (extractStridedSlice S1x128 ![0, 0] s slices_S16x128_S1x128_0_0)
        (extractStridedSlice S1x128 ![8, 0] s slices_S16x128_S1x128_8_0)) shapeCasts_S1x128_S4x32)
    (constant (F := Ideal) S_ .f32 0x00000000#32) reducesTo_S4x32_S32_d0 h_S_

def chanMean (s : Vec Ideal S16x128 .f32) : Vec Ideal S32 .f32 :=
  Host.divf (F := Ideal) (chanSums s) (broadcastInDim S32 ![] bcast_S_S32 (constant (F := Ideal) S_ .f32 0x49435000#32))

def chanVar (s1 s2 : Vec Ideal S16x128 .f32) : Vec Ideal S32 .f32 :=
  maximumf (subf (chanMean s2) (mulf (chanMean s1) (chanMean s1)))
    (broadcastInDim S32 ![] bcast_S_S32 (constant (F := Ideal) S_ .f32 0x00000000#32))

def tile128 (v : Vec Ideal S32 .f32) : Vec Ideal S1x128 .f32 :=
  shapeCast S1x128 (shapeCast S128 (broadcastInDim S4x32 ![0, 1] bcast_S1x32_S4x32_0_1 (shapeCast S1x32 v shapeCasts_S32_S1x32))
    shapeCasts_S4x32_S128) shapeCasts_S128_S1x128

theorem tile128_apply (v : Vec Ideal S32 .f32) (q : Fin 128) :
    tile128 v (ix2 (0 : Fin 1) q) = v (ix1 (⟨q.val % 32, Nat.mod_lt _ (by decide)⟩ : Fin 32)) := by
  have hq := q.isLt
  unfold tile128
  refine (shapeCast_apply _ _ _ (ix1 q) (by
    rw [Shape.rowMajor_val_one, Shape.rowMajor_val_two]
    show q.val = 0 * 128 + q.val
    omega)).trans ?_
  refine (shapeCast_apply _ _ _ (ix2 (⟨q.val / 32, by omega⟩ : Fin 4) (⟨q.val % 32, Nat.mod_lt _ (by decide)⟩ : Fin 32)) (by
    rw [Shape.rowMajor_val_two, Shape.rowMajor_val_one]
    show q.val / 32 * 32 + q.val % 32 = q.val
    omega)).trans ?_
  refine (broadcastInDim_apply _ _ _ _ (ix2 (0 : Fin 1) (⟨q.val % 32, Nat.mod_lt _ (by decide)⟩ : Fin 32))
    (fun a => match a with | ⟨0, _⟩ => rfl | ⟨1, _⟩ => rfl)).trans ?_
  exact shapeCast_apply _ _ _ (ix1 (⟨q.val % 32, Nat.mod_lt _ (by decide)⟩ : Fin 32)) (by
    rw [Shape.rowMajor_val_one, Shape.rowMajor_val_two]
    show q.val % 32 = 0 * 32 + q.val % 32
    omega)

theorem chanSums_apply (s : Vec Ideal S16x128 .f32) (j : Fin 32) :
    chanSums s (ix1 j) = EdgeNet.c0 + ∑ c : Fin 4,
      (s (ix2 (0 : Fin 16) (⟨32 * c.val + j.val, by have := c.isLt; have := j.isLt; omega⟩ : Fin 128))
        + s (ix2 (8 : Fin 16) (⟨32 * c.val + j.val, by have := c.isLt; have := j.isLt; omega⟩ : Fin 128))) := by
  unfold chanSums
  refine (hostReduceAdd_apply _ _ _ _ _).trans ?_
  refine (Ideal.hostReduceAdd_single reducesTo_S4x32_S32_d0 (by decide) _ _ _).trans ?_
  refine congrArg (EdgeNet.c0 + ·) (Finset.sum_congr rfl fun c _ => ?_)
  have hc : c.val < 4 := c.isLt
  have hj := j.isLt
  refine (shapeCast_apply _ _ _ (ix2 (0 : Fin 1) (⟨32 * c.val + j.val, by omega⟩ : Fin 128)) (by
    rw [Shape.rowMajor_val_two, Shape.rowMajor_val_two]
    show 0 * 128 + (32 * c.val + j.val) = c.val * 32 + j.val
    omega)).trans ?_
  refine (addf_apply _ _ _).trans ?_
  refine congrArg₂ (· + ·) ?_ ?_
  · exact extractStridedSlice_apply _ _ _ _ (ix2 (0 : Fin 16) (⟨32 * c.val + j.val, by omega⟩ : Fin 128))
      (fun a => match a with | ⟨0, _⟩ => rfl | ⟨1, _⟩ => (Nat.zero_add _).symm)
  · exact extractStridedSlice_apply _ _ _ _ (ix2 (8 : Fin 16) (⟨32 * c.val + j.val, by omega⟩ : Fin 128))
      (fun a => match a with | ⟨0, _⟩ => rfl | ⟨1, _⟩ => (Nat.zero_add _).symm)

theorem chanMean_apply (s : Vec Ideal S16x128 .f32) (j : Fin 32) :
    chanMean s (ix1 j) = Ideal.div (chanSums s (ix1 j)) EdgeNet.cN := rfl

theorem chanVar_apply (s1 s2 : Vec Ideal S16x128 .f32) (j : Fin 32) :
    chanVar s1 s2 (ix1 j) = max (chanMean s2 (ix1 j) - chanMean s1 (ix1 j) * chanMean s1 (ix1 j)) EdgeNet.c0 := rfl

theorem after1_v74 :
    (StableHlo.after hostOps1 W main_v74 : Vec Ideal S1x128 .f32) = tile128 (chanMean (W main_v52_1)) := by
  open StableHlo in after_results_simp
  rfl

theorem after1_v78 :
    (StableHlo.after hostOps1 W main_v78 : Vec Ideal S1x128 .f32) = tile128 (chanVar (W main_v52_1) (W main_v52_2)) := by
  open StableHlo in after_results_simp
  rfl

abbrev grpDiv (S : Vec Ideal S16x128 .f32) (q : Fin 128) : EReal :=
  Ideal.div (EdgeNet.c0 + ∑ c : Fin 4,
    (EdgeNet.cur2 (n0 := 16) (n1 := 128) S (0 : Fin 16) (⟨32 * c.val + q.val % 32, by have := c.isLt; have := Nat.mod_lt q.val (show 0 < 32 by decide); omega⟩ : Fin 128)
      + EdgeNet.cur2 (n0 := 16) (n1 := 128) S (8 : Fin 16) (⟨32 * c.val + q.val % 32, by have := c.isLt; have := Nat.mod_lt q.val (show 0 < 32 by decide); omega⟩ : Fin 128))) EdgeNet.cN

theorem mid_v74 (q : Fin 128) :
    EdgeNet.cur2 (n0 := 1) (n1 := 128) (StableHlo.after hostOps1 W main_v74) (0 : Fin 1) q
      = grpDiv (W main_v52_1) q := by
  show (StableHlo.after hostOps1 W main_v74 : Vec Ideal S1x128 .f32) (ix2 (0 : Fin 1) q) = _
  rw [after1_v74 W, tile128_apply, chanMean_apply, chanSums_apply]
  rfl

theorem mid_v78 (q : Fin 128) :
    EdgeNet.cur2 (n0 := 1) (n1 := 128) (StableHlo.after hostOps1 W main_v78) (0 : Fin 1) q
      = max (grpDiv (W main_v52_2) q
        - grpDiv (W main_v52_1) q
          * grpDiv (W main_v52_1) q)
        EdgeNet.c0 := by
  show (StableHlo.after hostOps1 W main_v78 : Vec Ideal S1x128 .f32) (ix2 (0 : Fin 1) q) = _
  rw [after1_v78 W, tile128_apply, chanVar_apply, chanMean_apply, chanMean_apply, chanSums_apply, chanSums_apply]
  rfl

theorem after2_v101 :
    (StableHlo.after hostOps2 W main_v101 : Vec Ideal S1x128 .f32) = tile128 (chanMean (W main_v79_1)) := by
  open StableHlo in after_results_simp
  rfl

theorem after2_v105 :
    (StableHlo.after hostOps2 W main_v105 : Vec Ideal S1x128 .f32) = tile128 (chanVar (W main_v79_1) (W main_v79_2)) := by
  open StableHlo in after_results_simp
  rfl

theorem mid_v101 (q : Fin 128) :
    EdgeNet.cur2 (n0 := 1) (n1 := 128) (StableHlo.after hostOps2 W main_v101) (0 : Fin 1) q
      = grpDiv (W main_v79_1) q := by
  show (StableHlo.after hostOps2 W main_v101 : Vec Ideal S1x128 .f32) (ix2 (0 : Fin 1) q) = _
  rw [after2_v101 W, tile128_apply, chanMean_apply, chanSums_apply]
  rfl

theorem mid_v105 (q : Fin 128) :
    EdgeNet.cur2 (n0 := 1) (n1 := 128) (StableHlo.after hostOps2 W main_v105) (0 : Fin 1) q
      = max (grpDiv (W main_v79_2) q
        - grpDiv (W main_v79_1) q
          * grpDiv (W main_v79_1) q)
        EdgeNet.c0 := by
  show (StableHlo.after hostOps2 W main_v105 : Vec Ideal S1x128 .f32) (ix2 (0 : Fin 1) q) = _
  rw [after2_v105 W, tile128_apply, chanVar_apply, chanMean_apply, chanMean_apply, chanSums_apply, chanSums_apply]
  rfl

theorem fin_v110 :
    (StableHlo.after hostOps3 W main_v110 : Vec Ideal S50000x32 .f32)
      = Host.scatterAdd (F := Ideal) scatter_S50000x32_S800000x1_S800000x32_1_0_0_1
          (broadcastInDim S50000x32 ![] bcast_S_S50000x32 (constant (F := Ideal) S_ .f32 0x00000000#32))
          (broadcastInDim S800000x1 ![0] bcast_S800000_S800000x1_0 (W main_v1))
          (shapeCast S800000x32 (W main_v106) shapeCasts_S200000x128_S800000x32) := by
  after_results; rfl

theorem reshape_read (Y : Vec Ideal S200000x128 .f32) (e : Fin 800000) (j : Fin 32) :
    shapeCast S800000x32 Y shapeCasts_S200000x128_S800000x32 (ix2 e j)
      = Y (ix2 (⟨e.val / 4, by have := e.isLt; omega⟩ : Fin 200000)
            (⟨32 * (e.val % 4) + j.val, by have := j.isLt; have := Nat.mod_lt e.val (show 0 < 4 by decide); omega⟩ : Fin 128)) := by
  have he := e.isLt
  have hj := j.isLt
  exact shapeCast_apply _ _ _ _ (by
    rw [Shape.rowMajor_val_two, Shape.rowMajor_val_two]
    show e.val / 4 * 128 + (32 * (e.val % 4) + j.val) = e.val * 32 + j.val
    omega)

end Cert.KernelIdeal.Fr

end
-- ==== Proof.MathSums.lean ====
import proofs.«416909_j55972013802026_3_alg».proof.Proof.Spec
import Mathlib.Algebra.BigOperators.Fin
import Mathlib.Data.Fintype.BigOperators
import Mathlib.Logic.Equiv.Fin.Basic

/-! A sum over a packed row splits into four groups of 32: a packed row times a block-diagonal matrix is the per-edge product, and packed column sums are per-channel sums. -/

noncomputable section

open scoped BigOperators

namespace EdgeNet

open Idealize.ShloMosaic

theorem c0_eq : c0 = 0 := Ideal.ofBits_zero_f32

theorem group_lt {m n : ℕ} (a : Fin m) (b : Fin n) : n * a.val + b.val < m * n :=
  calc n * a.val + b.val < n * a.val + n := Nat.add_lt_add_left b.isLt _
    _ = n * (a.val + 1) := (Nat.mul_succ n a.val).symm
    _ ≤ n * m := Nat.mul_le_mul_left n (Nat.succ_le_of_lt a.isLt)
    _ = m * n := Nat.mul_comm n m

theorem sum_groups {M : Type*} [AddCommMonoid M] (N m n : ℕ) (h : N = m * n) (G : Fin N → M) :
    ∑ k : Fin N, G k = ∑ a : Fin m, ∑ b : Fin n, G ⟨n * a.val + b.val, h ▸ group_lt a b⟩ := by
  subst h
  calc ∑ k : Fin (m * n), G k = ∑ x : Fin m × Fin n, G (finProdFinEquiv x) :=
        (Equiv.sum_comp finProdFinEquiv G).symm
    _ = ∑ a : Fin m, ∑ b : Fin n, G (finProdFinEquiv (a, b)) := Fintype.sum_prod_type _
    _ = _ := by
      refine Finset.sum_congr rfl fun a _ => Finset.sum_congr rfl fun b _ => ?_
      exact congrArg G (Fin.ext (Nat.add_comm _ _))

section
variable (xr xc : Fin 800000 → Fin 32 → EReal) (W1 : Fin 64 → Fin 32 → EReal) (b1 : Fin 32 → EReal)
  (W2 : Fin 32 → Fin 32 → EReal) (b2 : Fin 32 → EReal)

theorem pk_group (f : Fin 800000 → Fin 32 → EReal) (p : Fin 200000) (c : Fin 4) (k : Fin 32)
    (h : 32 * c.val + k.val < 128) (h' : 4 * p.val + c.val < 800000) :
    pk f p ⟨32 * c.val + k.val, h⟩ = f ⟨4 * p.val + c.val, h'⟩ k := by
  unfold pk
  have hc := c.isLt
  have hk := k.isLt
  exact congrArg₂ f (Fin.ext (by show 4 * p.val + (32 * c.val + k.val) / 32 = 4 * p.val + c.val; omega))
    (Fin.ext (by show (32 * c.val + k.val) % 32 = k.val; omega))

theorem bd_group (w : Fin 32 → Fin 32 → EReal) (c : Fin 4) (k : Fin 32) (q : Fin 128) (h : 32 * c.val + k.val < 128) :
    bd w ⟨32 * c.val + k.val, h⟩ q
      = if c.val = q.val / 32 then w k ⟨q.val % 32, Nat.mod_lt _ (by decide)⟩ else 0 := by
  unfold bd
  have hc := c.isLt
  have hk := k.isLt
  by_cases hcq : c.val = q.val / 32
  · rw [if_pos hcq, if_pos (show (32 * c.val + k.val) / 32 = q.val / 32 by omega)]
    exact congrArg₂ w (Fin.ext (by show (32 * c.val + k.val) % 32 = k.val; omega)) rfl
  · rw [if_neg hcq, if_neg (show ¬ (32 * c.val + k.val) / 32 = q.val / 32 by omega), c0_eq]

theorem sum_pk_bd (a : Fin 800000 → Fin 32 → EReal) (w : Fin 32 → Fin 32 → EReal) (p : Fin 200000) (q : Fin 128) :
    ∑ k : Fin 128, pk a p k * bd w k q
      = ∑ k : Fin 32, a ⟨4 * p.val + q.val / 32, by have := p.isLt; have := q.isLt; omega⟩ k
          * w k ⟨q.val % 32, Nat.mod_lt _ (by decide)⟩ := by
  have hq : q.val / 32 < 4 := by have := q.isLt; omega
  rw [sum_groups 128 4 32 (by norm_num), Finset.sum_eq_single (⟨q.val / 32, hq⟩ : Fin 4)]
  · refine Finset.sum_congr rfl fun k _ => ?_
    rw [pk_group a p ⟨q.val / 32, hq⟩ k _ (by have := p.isLt; show 4 * p.val + q.val / 32 < 800000; omega),
      bd_group, if_pos rfl]
  · intro c _ hc
    refine Finset.sum_eq_zero fun k _ => ?_
    rw [bd_group, if_neg (fun h => hc (Fin.ext h)), mul_zero]
  · intro h
    exact absurd (Finset.mem_univ _) h

theorem term_lo (e : Fin 800000) (j k : Fin 32) (i : Fin 64) (hi : i.val = k.val) :
    cat xr xc e i * W1 i j = xr e k * W1a W1 k j := by
  have hk := k.isLt
  unfold cat W1a
  rw [dif_pos (show i.val < 32 by omega)]
  exact congrArg₂ (· * ·) (congrArg (xr e) (Fin.ext hi)) (congrArg (fun t => W1 t j) (Fin.ext hi))

theorem term_hi (e : Fin 800000) (j k : Fin 32) (i : Fin 64) (hi : i.val = 32 + k.val) :
    cat xr xc e i * W1 i j = xc e k * W1b W1 k j := by
  have hk := k.isLt
  unfold cat W1b
  rw [dif_neg (show ¬ i.val < 32 by omega)]
  exact congrArg₂ (· * ·) (congrArg (xc e) (Fin.ext (by show i.val - 32 = k.val; omega)))
    (congrArg (fun t => W1 t j) (Fin.ext (by show i.val = k.val + 32; omega)))

theorem klin1_eq (p : Fin 200000) (q : Fin 128) : klin1 xr xc W1 b1 p q = pk (lin1 xr xc W1 b1) p q := by
  unfold klin1
  rw [sum_pk_bd, sum_pk_bd]
  unfold pk lin1 tl
  rw [sum_groups 64 2 32 (by norm_num), Fin.sum_univ_two]
  refine congrArg₂ (· + ·) (congrArg₂ (· + ·) ?_ ?_) rfl
  · exact Finset.sum_congr rfl fun k _ => (term_lo xr xc W1 _ _ k _ (by simp)).symm
  · exact Finset.sum_congr rfl fun k _ => (term_hi xr xc W1 _ _ k _ (by simp)).symm

theorem klin2_eq (a : Fin 800000 → Fin 32 → EReal) (p : Fin 200000) (q : Fin 128) :
    klin2 W2 b2 (pk a) p q = pk (lin2 W2 b2 a) p q := by
  unfold klin2
  rw [sum_pk_bd]
  rfl

end

theorem chanSum_tileSum_pk (f : Fin 800000 → Fin 32 → EReal) (j : Fin 32) :
    chanSum (tileSum (pk f)) j = c0 + ∑ e : Fin 800000, f e j := by
  unfold chanSum
  refine congrArg (c0 + ·) ?_
  symm
  rw [sum_groups 800000 200000 4 (by norm_num), Finset.sum_comm]
  refine Finset.sum_congr rfl fun c _ => ?_
  rw [sum_groups 200000 2 100000 (by norm_num), Fin.sum_univ_two]
  have hc := c.isLt
  refine congrArg₂ (· + ·) ?_ ?_
  · unfold tileSum
    rw [sum_groups 100000 25 4000 (by norm_num)]
    refine Finset.sum_congr rfl fun i _ => Finset.sum_congr rfl fun r _ => ?_
    have hi := i.isLt
    have hr := r.isLt
    rw [pk_group f _ c j _ (by show 4 * (4000 * (25 * (0 : Fin 2).val + i.val) + r.val) + c.val < 800000
                               simp only [Fin.val_zero]; omega)]
    exact congrArg (fun t => f t j) (Fin.ext (by simp only [Fin.val_zero]; omega))
  · unfold tileSum
    rw [sum_groups 100000 25 4000 (by norm_num)]
    refine Finset.sum_congr rfl fun i _ => Finset.sum_congr rfl fun r _ => ?_
    have hi := i.isLt
    have hr := r.isLt
    rw [pk_group f _ c j _ (by show 4 * (4000 * (25 * (1 : Fin 2).val + i.val) + r.val) + c.val < 800000
                               simp only [Fin.val_one]; omega)]
    exact congrArg (fun t => f t j) (Fin.ext (by simp only [Fin.val_one]; omega))

theorem pk_mul (f g : Fin 800000 → Fin 32 → EReal) :
    (fun p q => pk f p q * pk g p q) = pk (fun e j => f e j * g e j) := rfl

end EdgeNet

end
-- ==== Proof.Math.lean ====
import proofs.«416909_j55972013802026_3_alg».proof.Proof.MathSums
import Mathlib.Algebra.BigOperators.Ring.Finset
import Mathlib.Algebra.Order.BigOperators.Ring.Finset
import Mathlib.Data.EReal.Operations
import Mathlib.Tactic.Ring
import Mathlib.Tactic.FieldSimp
import Mathlib.Tactic.Positivity
import Mathlib.Tactic.NormNum

/-! On finite inputs the packed arrangement equals the per-edge one entry by entry: the mean of squares minus the squared mean is the variance, which is never negative, so the clamp at zero changes nothing. -/

noncomputable section

open scoped BigOperators

namespace EdgeNet

open Idealize.ShloMosaic

namespace Stats

theorem cN_eq : cN = ((800000 : ℝ) : EReal) := by
  show Ideal.ofBits .f32 0x49435000#32 = _
  simp [Ideal.ofBits, Ideal.ieee, -EReal.coe_mul] <;> norm_num

theorem cEps_pos : ∃ ε : ℝ, 0 < ε ∧ cEps = (ε : EReal) := by
  refine ⟨10995116 * (2 : ℝ) ^ (-40 : ℤ), by positivity, ?_⟩
  show Ideal.ofBits .f32 0x3727C5AC#32 = _
  simp [Ideal.ofBits, Ideal.ieee, -EReal.coe_mul] <;> norm_num

theorem coe_sum {ι : Type*} (s : Finset ι) (r : ι → ℝ) :
    ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem fin_sum {ι : Type*} (s : Finset ι) (F : ι → EReal) (h : ∀ i, ∃ r : ℝ, F i = (r : EReal)) :
    ∃ r : ℝ, ∑ i ∈ s, F i = (r : EReal) := by
  choose r hr using h
  exact ⟨∑ i ∈ s, r i, by rw [coe_sum]; exact Finset.sum_congr rfl fun i _ => hr i⟩

theorem div_sum_coe (g : Fin 800000 → EReal) (s : Fin 800000 → ℝ) (hs : ∀ e, g e = (s e : EReal)) :
    Ideal.div (c0 + ∑ e, g e) cN = (((∑ e, s e) * (1 / 800000) : ℝ) : EReal) := by
  have h1 : (∑ e, g e) = ((∑ e, s e : ℝ) : EReal) := by
    rw [coe_sum]; exact Finset.sum_congr rfl fun e _ => hs e
  have hN : (800000 : ℝ) ≠ 0 := by norm_num
  rw [c0_eq, zero_add, h1, cN_eq, Ideal.div_coe hN, ← EReal.coe_mul]

theorem var_identity {ι : Type*} [Fintype ι] (N : ℝ) (hN : (Fintype.card ι : ℝ) = N) (hN0 : N ≠ 0) (s : ι → ℝ) :
    (∑ e, (s e - (∑ e, s e) * (1 / N)) * (s e - (∑ e, s e) * (1 / N))) * (1 / N)
      = (∑ e, s e * s e) * (1 / N) - ((∑ e, s e) * (1 / N)) * ((∑ e, s e) * (1 / N)) := by
  generalize hS : (∑ e, s e) = S
  generalize hm : S * (1 / N) = m
  have h : ∑ e, (s e - m) * (s e - m) = (∑ e, s e * s e) - 2 * m * S + N * (m * m) := by
    have hexp : ∀ e, (s e - m) * (s e - m) = s e * s e - 2 * m * s e + m * m := fun e => by ring
    simp only [hexp]
    rw [Finset.sum_add_distrib, Finset.sum_sub_distrib, ← Finset.mul_sum, hS, Finset.sum_const, Finset.card_univ,
      nsmul_eq_mul, hN]
  rw [h, ← hm]
  field_simp
  ring

theorem var_nonneg {ι : Type*} [Fintype ι] (N : ℝ) (hN0 : 0 < N) (s : ι → ℝ) (m : ℝ) :
    0 ≤ (∑ e, (s e - m) * (s e - m)) * (1 / N) :=
  mul_nonneg (Finset.sum_nonneg fun e _ => mul_self_nonneg _) (by positivity)

section stats
variable (f : Fin 800000 → Fin 32 → EReal) (r : Fin 800000 → Fin 32 → ℝ) (hr : ∀ e j, f e j = (r e j : EReal))
include hr

theorem colMean_coe (j : Fin 32) : colMean f j = (((∑ e, r e j) * (1 / 800000) : ℝ) : EReal) :=
  div_sum_coe (fun e => f e j) (fun e => r e j) fun e => hr e j

theorem colVar_coe (j : Fin 32) :
    colVar f j = (((∑ e, (r e j - (∑ e, r e j) * (1 / 800000)) * (r e j - (∑ e, r e j) * (1 / 800000))) * (1 / 800000) : ℝ) : EReal) :=
  div_sum_coe (fun e => (f e j - colMean f j) * (f e j - colMean f j))
    (fun e => (r e j - (∑ e, r e j) * (1 / 800000)) * (r e j - (∑ e, r e j) * (1 / 800000))) fun e => by
      rw [hr e j, colMean_coe f r hr j, ← EReal.coe_sub, ← EReal.coe_mul]

theorem meanSq_coe (j : Fin 32) :
    Ideal.div (c0 + ∑ e, f e j * f e j) cN = (((∑ e, r e j * r e j) * (1 / 800000) : ℝ) : EReal) :=
  div_sum_coe (fun e => f e j * f e j) (fun e => r e j * r e j) fun e => by rw [hr e j, ← EReal.coe_mul]

end stats

end Stats

open Stats

theorem kMean_eq (f : Fin 800000 → Fin 32 → EReal) (j : Fin 32) : kMean (pk f) j = colMean f j := by
  unfold kMean colMean
  rw [chanSum_tileSum_pk]

theorem kVar_eq (f : Fin 800000 → Fin 32 → EReal) (hf : Fin2 f) (j : Fin 32) : kVar (pk f) j = colVar f j := by
  choose r hr using hf
  have hsq : chanSum (tileSum fun p q => pk f p q * pk f p q) j = c0 + ∑ e, f e j * f e j := by
    rw [pk_mul f f]; exact chanSum_tileSum_pk (fun e j => f e j * f e j) j
  have hcard : ((Fintype.card (Fin 800000) : ℕ) : ℝ) = 800000 := by rw [Fintype.card_fin]; norm_num
  unfold kVar
  rw [hsq, kMean_eq, meanSq_coe f r hr j, colMean_coe f r hr j, colVar_coe f r hr j, c0_eq, ← EReal.coe_mul,
    ← EReal.coe_sub, ← EReal.coe_zero, coe_max, ← var_identity 800000 hcard (by norm_num) fun e => r e j,
    max_eq_left (var_nonneg 800000 (by norm_num) (fun e => r e j) _)]

theorem kBnRelu_eq (f : Fin 800000 → Fin 32 → EReal) (hf : Fin2 f) (g be : Fin 32 → EReal) (p : Fin 200000) (q : Fin 128) :
    kBnRelu (pk f) g be p q = pk (bnRelu f g be) p q := by
  have hM : kMean (pk f) = colMean f := funext (kMean_eq f)
  have hV : kVar (pk f) = colVar f := funext (kVar_eq f hf)
  unfold kBnRelu
  rw [hM, hV]
  rfl

section finite
variable (xr xc : Fin 800000 → Fin 32 → EReal) (W1 : Fin 64 → Fin 32 → EReal) (b1 : Fin 32 → EReal)
  (W2 : Fin 32 → Fin 32 → EReal) (b2 : Fin 32 → EReal)

theorem fin2_cat (hxr : Fin2 xr) (hxc : Fin2 xc) : Fin2 (cat xr xc) := by
  intro e k
  unfold cat
  split
  · exact hxr _ _
  · exact hxc _ _

theorem fin2_lin1 (hxr : Fin2 xr) (hxc : Fin2 xc) (hW1 : Fin2 W1) (hb1 : Fin1 b1) : Fin2 (lin1 xr xc W1 b1) := by
  intro e j
  obtain ⟨s, hs⟩ := fin_sum Finset.univ (fun k => cat xr xc e k * W1 k j) fun k => by
    obtain ⟨a, ha⟩ := fin2_cat xr xc hxr hxc e k
    obtain ⟨w, hw⟩ := hW1 k j
    exact ⟨a * w, by rw [ha, hw, EReal.coe_mul]⟩
  obtain ⟨b, hb⟩ := hb1 j
  exact ⟨s + b, by unfold lin1; rw [hs, hb, EReal.coe_add]⟩

theorem fin2_lin2 (a : Fin 800000 → Fin 32 → EReal) (ha : Fin2 a) (hW2 : Fin2 W2) (hb2 : Fin1 b2) : Fin2 (lin2 W2 b2 a) := by
  intro e j
  obtain ⟨s, hs⟩ := fin_sum Finset.univ (fun k => a e k * W2 k j) fun k => by
    obtain ⟨x, hx⟩ := ha e k
    obtain ⟨w, hw⟩ := hW2 k j
    exact ⟨x * w, by rw [hx, hw, EReal.coe_mul]⟩
  obtain ⟨b, hb⟩ := hb2 j
  exact ⟨s + b, by unfold lin2; rw [hs, hb, EReal.coe_add]⟩

theorem fin2_bnRelu (f : Fin 800000 → Fin 32 → EReal) (hf : Fin2 f) (g be : Fin 32 → EReal) (hg : Fin1 g) (hbe : Fin1 be) :
    Fin2 (bnRelu f g be) := by
  choose r hr using hf
  intro e j
  obtain ⟨ε, hε, hcε⟩ := cEps_pos
  obtain ⟨gj, hgj⟩ := hg j
  obtain ⟨bj, hbj⟩ := hbe j
  have hv0 := var_nonneg (ι := Fin 800000) 800000 (by norm_num) (fun e => r e j) ((∑ e, r e j) * (1 / 800000))
  generalize hvdef : (∑ e, (r e j - (∑ e, r e j) * (1 / 800000)) * (r e j - (∑ e, r e j) * (1 / 800000))) * (1 / 800000) = v at hv0
  have hpos : 0 < v + ε := by linarith
  refine ⟨max ((r e j - (∑ e, r e j) * (1 / 800000)) * (Real.sqrt (v + ε))⁻¹ * gj + bj) 0, ?_⟩
  unfold bnRelu
  rw [hr e j, colMean_coe f r hr j, colVar_coe f r hr j, hvdef, hcε, hgj, hbj, c0_eq, ← EReal.coe_add v ε,
    Ideal.rsqrt_coe, if_neg (not_lt.mpr hpos.le), if_neg hpos.ne', ← EReal.coe_sub, ← EReal.coe_mul, ← EReal.coe_mul,
    ← EReal.coe_add, ← EReal.coe_zero, coe_max]

end finite

section final
variable (xr xc : Fin 800000 → Fin 32 → EReal) (W1 : Fin 64 → Fin 32 → EReal) (b1 g1 be1 : Fin 32 → EReal)
  (W2 : Fin 32 → Fin 32 → EReal) (b2 g2 be2 : Fin 32 → EReal)

theorem kerOut_eq (hxr : Fin2 xr) (hxc : Fin2 xc) (hW1 : Fin2 W1) (hb1 : Fin1 b1) (hg1 : Fin1 g1) (hbe1 : Fin1 be1)
    (hW2 : Fin2 W2) (hb2 : Fin1 b2) (hg2 : Fin1 g2) (hbe2 : Fin1 be2) (p : Fin 200000) (q : Fin 128) :
    kerOut xr xc W1 b1 g1 be1 W2 b2 g2 be2 p q = pk (refOut xr xc W1 b1 g1 be1 W2 b2 g2 be2) p q := by
  have hL1 : Fin2 (lin1 xr xc W1 b1) := fin2_lin1 xr xc W1 b1 hxr hxc hW1 hb1
  have hA1 : Fin2 (bnRelu (lin1 xr xc W1 b1) g1 be1) := fin2_bnRelu _ hL1 g1 be1 hg1 hbe1
  have hL2 : Fin2 (lin2 W2 b2 (bnRelu (lin1 xr xc W1 b1) g1 be1)) := fin2_lin2 W2 b2 _ hA1 hW2 hb2
  have e1 : klin1 xr xc W1 b1 = pk (lin1 xr xc W1 b1) := funext fun p => funext fun q => klin1_eq xr xc W1 b1 p q
  have e2 : kBnRelu (pk (lin1 xr xc W1 b1)) g1 be1 = pk (bnRelu (lin1 xr xc W1 b1) g1 be1) :=
    funext fun p => funext fun q => kBnRelu_eq _ hL1 g1 be1 p q
  have e3 : klin2 W2 b2 (pk (bnRelu (lin1 xr xc W1 b1) g1 be1)) = pk (lin2 W2 b2 (bnRelu (lin1 xr xc W1 b1) g1 be1)) :=
    funext fun p => funext fun q => klin2_eq W2 b2 _ p q
  unfold kerOut
  rw [e1, e2, e3, kBnRelu_eq _ hL2 g2 be2 p q]
  rfl

end final

end EdgeNet

end
-- ==== Proof.RefValue.lean ====
import proofs.«416909_j55972013802026_3_alg».proof.Proof.RefRead
import proofs.«416909_j55972013802026_3_alg».proof.Proof.Spec

/-! The reference's stages read at an index: its message array is the per-edge arrangement. -/

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.ReadP EdgeNet

variable {x0 : (⟨S50000x32, .f32⟩ : BufTy).Contents (Elt Ideal)} {x1 : (⟨S64x32, .f32⟩ : BufTy).Contents (Elt Ideal)}
  {x2 x3 x4 : (⟨S32, .f32⟩ : BufTy).Contents (Elt Ideal)} {x5 : (⟨S32x32, .f32⟩ : BufTy).Contents (Elt Ideal)}
  {x6 x7 x8 : (⟨S32, .f32⟩ : BufTy).Contents (Elt Ideal)} {x9 : (⟨S2x800000, .i32⟩ : BufTy).Contents (Elt Ideal)}

theorem bias1_row (e : Fin 800000) (j : Fin 32) :
    val_main_v21 (F := Ideal) x2 (ix2 e j) = x2 (ix1 j) := by
  rw [val_main_v21_apply, val_main_v20_apply]
  exact congrArg _ (funext fun a => Fin.ext (by match a with | ⟨0, _⟩ => rfl))

theorem mean1_row (e : Fin 800000) (j : Fin 32) :
    val_main_v27 (F := Ideal) x0 x1 x2 x9 (ix2 e j) = val_main_v25 (F := Ideal) x0 x1 x2 x9 (ix1 j) := by
  rw [val_main_v27_apply, val_main_v26_apply]
  exact congrArg _ (funext fun a => Fin.ext (by match a with | ⟨0, _⟩ => rfl))

theorem mean1_row' (e : Fin 800000) (j : Fin 32) :
    val_main_v34 (F := Ideal) x0 x1 x2 x9 (ix2 e j) = val_main_v25 (F := Ideal) x0 x1 x2 x9 (ix1 j) := by
  rw [val_main_v34_apply, val_main_v33_apply]
  exact congrArg _ (funext fun a => Fin.ext (by match a with | ⟨0, _⟩ => rfl))

theorem rstd1_row (e : Fin 800000) (j : Fin 32) :
    val_main_v40 (F := Ideal) x0 x1 x2 x9 (ix2 e j) = val_main_v38 (F := Ideal) x0 x1 x2 x9 (ix1 j) := by
  rw [val_main_v40_apply, val_main_v39_apply]
  exact congrArg _ (funext fun a => Fin.ext (by match a with | ⟨0, _⟩ => rfl))

theorem gamma1_row (e : Fin 800000) (j : Fin 32) :
    val_main_v43 (F := Ideal) x3 (ix2 e j) = x3 (ix1 j) := by
  rw [val_main_v43_apply, val_main_v42_apply]
  exact congrArg _ (funext fun a => Fin.ext (by match a with | ⟨0, _⟩ => rfl))

theorem beta1_row (e : Fin 800000) (j : Fin 32) :
    val_main_v46 (F := Ideal) x4 (ix2 e j) = x4 (ix1 j) := by
  rw [val_main_v46_apply, val_main_v45_apply]
  exact congrArg _ (funext fun a => Fin.ext (by match a with | ⟨0, _⟩ => rfl))

theorem bias2_row (e : Fin 800000) (j : Fin 32) :
    val_main_v51 (F := Ideal) x6 (ix2 e j) = x6 (ix1 j) := by
  rw [val_main_v51_apply, val_main_v50_apply]
  exact congrArg _ (funext fun a => Fin.ext (by match a with | ⟨0, _⟩ => rfl))

theorem mean2_row (e : Fin 800000) (j : Fin 32) :
    val_main_v57 (F := Ideal) x0 x1 x2 x3 x4 x5 x6 x9 (ix2 e j) = val_main_v55 (F := Ideal) x0 x1 x2 x3 x4 x5 x6 x9 (ix1 j) := by
  rw [val_main_v57_apply, val_main_v56_apply]
  exact congrArg _ (funext fun a => Fin.ext (by match a with | ⟨0, _⟩ => rfl))

theorem mean2_row' (e : Fin 800000) (j : Fin 32) :
    val_main_v64 (F := Ideal) x0 x1 x2 x3 x4 x5 x6 x9 (ix2 e j) = val_main_v55 (F := Ideal) x0 x1 x2 x3 x4 x5 x6 x9 (ix1 j) := by
  rw [val_main_v64_apply, val_main_v63_apply]
  exact congrArg _ (funext fun a => Fin.ext (by match a with | ⟨0, _⟩ => rfl))

theorem rstd2_row (e : Fin 800000) (j : Fin 32) :
    val_main_v70 (F := Ideal) x0 x1 x2 x3 x4 x5 x6 x9 (ix2 e j) = val_main_v68 (F := Ideal) x0 x1 x2 x3 x4 x5 x6 x9 (ix1 j) := by
  rw [val_main_v70_apply, val_main_v69_apply]
  exact congrArg _ (funext fun a => Fin.ext (by match a with | ⟨0, _⟩ => rfl))

theorem gamma2_row (e : Fin 800000) (j : Fin 32) :
    val_main_v73 (F := Ideal) x7 (ix2 e j) = x7 (ix1 j) := by
  rw [val_main_v73_apply, val_main_v72_apply]
  exact congrArg _ (funext fun a => Fin.ext (by match a with | ⟨0, _⟩ => rfl))

theorem beta2_row (e : Fin 800000) (j : Fin 32) :
    val_main_v76 (F := Ideal) x8 (ix2 e j) = x8 (ix1 j) := by
  rw [val_main_v76_apply, val_main_v75_apply]
  exact congrArg _ (funext fun a => Fin.ext (by match a with | ⟨0, _⟩ => rfl))

theorem cat_read (e : Fin 800000) (k : Fin 64) :
    val_main_v18 (F := Ideal) x0 x9 (ix2 e k)
      = cat (cur2 (val_main_v10 (F := Ideal) x0 x9)) (cur2 (val_main_v17 (F := Ideal) x0 x9)) e k := by
  unfold val_main_v18 cat cur2
  generalize val_main_v10 (F := Ideal) x0 x9 = y1
  generalize val_main_v17 (F := Ideal) x0 x9 = y2
  by_cases hk : k.val < 32
  · rw [dif_pos hk]
    exact concatenate_pair_apply_left 1 y1 y2 concatenates_S800000x32_S800000x32_S800000x64_d1 (ix2 e k) rfl
      (ix2 e ⟨k.val, hk⟩) (fun b => by match b with | ⟨0, _⟩ => rfl | ⟨1, _⟩ => rfl)
  · rw [dif_neg hk]
    exact concatenate_pair_apply_right 1 y1 y2 concatenates_S800000x32_S800000x32_S800000x64_d1 (ix2 e k) rfl rfl
      (ix2 e ⟨k.val - 32, by have := k.isLt; omega⟩)
      (fun b hb => by
        match b, hb with
        | ⟨0, _⟩, _ => rfl
        | ⟨1, _⟩, hb => exact absurd (Fin.ext rfl) hb)
      (by show k.val - 32 + 32 = k.val; omega)

theorem lin1_read (e : Fin 800000) (j : Fin 32) :
    val_main_v22 (F := Ideal) x0 x1 x2 x9 (ix2 e j)
      = lin1 (cur2 (val_main_v10 (F := Ideal) x0 x9)) (cur2 (val_main_v17 (F := Ideal) x0 x9)) (cur2 x1) (cur1 x2) e j := by
  rw [val_main_v22_apply, val_main_v19_apply, bias1_row, Ideal.addf_def]
  unfold lin1
  refine congrArg (· + cur1 x2 j) (Finset.sum_congr rfl fun k _ => ?_)
  rw [show lidx_main_v19 (ix2 e j) k = ix2 e k from funext fun a => Fin.ext (by match a with | ⟨0, _⟩ => rfl | ⟨1, _⟩ => rfl),
    show ridx_main_v19 (ix2 e j) k = ix2 k j from funext fun a => Fin.ext (by match a with | ⟨0, _⟩ => rfl | ⟨1, _⟩ => rfl), cat_read]
  rfl

section first
variable (h : Fin 800000 → Fin 32 → EReal)
  (hh : ∀ (e : Fin 800000) (j : Fin 32), val_main_v22 (F := Ideal) x0 x1 x2 x9 (ix2 e j) = h e j)
include hh

theorem mean1_read (j : Fin 32) : val_main_v25 (F := Ideal) x0 x1 x2 x9 (ix1 j) = colMean h j := by
  rw [val_main_v25_apply, val_main_v23_apply, val_main_v24_apply, val_main_cst_apply, val_main_cst_3_apply,
    Ideal.hostDivf_def]
  unfold colMean
  refine congrArg (fun s => Ideal.div (c0 + s) cN) (Finset.sum_congr rfl fun k _ => ?_)
  rw [show idx_main_v23 (ix1 j) k = ix2 k j from funext fun a => Fin.ext (by match a with | ⟨0, _⟩ => rfl | ⟨1, _⟩ => rfl)]
  exact hh k j

theorem var1_read (j : Fin 32) : val_main_v32 (F := Ideal) x0 x1 x2 x9 (ix1 j) = colVar h j := by
  rw [val_main_v32_apply, val_main_v30_apply, val_main_v31_apply, val_main_cst_4_apply, val_main_cst_5_apply,
    Ideal.hostDivf_def]
  unfold colVar
  refine congrArg (fun s => Ideal.div (c0 + s) cN) (Finset.sum_congr rfl fun k _ => ?_)
  rw [show idx_main_v30 (ix1 j) k = ix2 k j from funext fun a => Fin.ext (by match a with | ⟨0, _⟩ => rfl | ⟨1, _⟩ => rfl),
    val_main_v29_apply, val_main_v28_apply, mean1_row, hh, mean1_read h hh j, Ideal.mulf_def, Ideal.subf_def]

theorem bn1_read (e : Fin 800000) (j : Fin 32) :
    val_main_v48 (F := Ideal) x0 x1 x2 x3 x4 x9 (ix2 e j) = bnRelu h (cur1 x3) (cur1 x4) e j := by
  rw [val_main_v48_apply, val_main_v47_apply, val_main_v44_apply, val_main_v41_apply, val_main_v35_apply,
    mean1_row', rstd1_row, val_main_v38_apply, val_main_v37_apply, val_main_v36_apply, val_main_cst_6_apply,
    gamma1_row, beta1_row, val_main_call0_v0_apply, val_main_call0_cst_apply, hh, mean1_read h hh j, var1_read h hh j]
  simp only [Ideal.maximumf_def, Ideal.addf_def, Ideal.mulf_def, Ideal.subf_def, Ideal.hostUnary_rsqrt_def,
    Ideal.ofBits_def, bnRelu, cur1]

end first

theorem lin2_read (a : Fin 800000 → Fin 32 → EReal)
    (ha : ∀ (e : Fin 800000) (j : Fin 32), val_main_v48 (F := Ideal) x0 x1 x2 x3 x4 x9 (ix2 e j) = a e j)
    (e : Fin 800000) (j : Fin 32) :
    val_main_v52 (F := Ideal) x0 x1 x2 x3 x4 x5 x6 x9 (ix2 e j) = lin2 (cur2 x5) (cur1 x6) a e j := by
  rw [val_main_v52_apply, val_main_v49_apply, bias2_row, Ideal.addf_def]
  unfold lin2
  refine congrArg (· + cur1 x6 j) (Finset.sum_congr rfl fun k _ => ?_)
  rw [show lidx_main_v49 (ix2 e j) k = ix2 e k from funext fun a => Fin.ext (by match a with | ⟨0, _⟩ => rfl | ⟨1, _⟩ => rfl),
    show ridx_main_v49 (ix2 e j) k = ix2 k j from funext fun a => Fin.ext (by match a with | ⟨0, _⟩ => rfl | ⟨1, _⟩ => rfl), ha]
  rfl

section second
variable (h : Fin 800000 → Fin 32 → EReal)
  (hh : ∀ (e : Fin 800000) (j : Fin 32), val_main_v52 (F := Ideal) x0 x1 x2 x3 x4 x5 x6 x9 (ix2 e j) = h e j)
include hh

theorem mean2_read (j : Fin 32) : val_main_v55 (F := Ideal) x0 x1 x2 x3 x4 x5 x6 x9 (ix1 j) = colMean h j := by
  rw [val_main_v55_apply, val_main_v53_apply, val_main_v54_apply, val_main_cst_7_apply, val_main_cst_8_apply,
    Ideal.hostDivf_def]
  unfold colMean
  refine congrArg (fun s => Ideal.div (c0 + s) cN) (Finset.sum_congr rfl fun k _ => ?_)
  rw [show idx_main_v53 (ix1 j) k = ix2 k j from funext fun a => Fin.ext (by match a with | ⟨0, _⟩ => rfl | ⟨1, _⟩ => rfl)]
  exact hh k j

theorem var2_read (j : Fin 32) : val_main_v62 (F := Ideal) x0 x1 x2 x3 x4 x5 x6 x9 (ix1 j) = colVar h j := by
  rw [val_main_v62_apply, val_main_v60_apply, val_main_v61_apply, val_main_cst_9_apply, val_main_cst_10_apply,
    Ideal.hostDivf_def]
  unfold colVar
  refine congrArg (fun s => Ideal.div (c0 + s) cN) (Finset.sum_congr rfl fun k _ => ?_)
  rw [show idx_main_v60 (ix1 j) k = ix2 k j from funext fun a => Fin.ext (by match a with | ⟨0, _⟩ => rfl | ⟨1, _⟩ => rfl),
    val_main_v59_apply, val_main_v58_apply, mean2_row, hh, mean2_read h hh j, Ideal.mulf_def, Ideal.subf_def]

theorem bn2_read (e : Fin 800000) (j : Fin 32) :
    val_main_v78 (F := Ideal) x0 x1 x2 x3 x4 x5 x6 x7 x8 x9 (ix2 e j) = bnRelu h (cur1 x7) (cur1 x8) e j := by
  rw [val_main_v78_apply, val_main_v77_apply, val_main_v74_apply, val_main_v71_apply, val_main_v65_apply,
    mean2_row', rstd2_row, val_main_v68_apply, val_main_v67_apply, val_main_v66_apply, val_main_cst_11_apply,
    gamma2_row, beta2_row, val_main_call1_v0_apply, val_main_call1_cst_apply, hh, mean2_read h hh j, var2_read h hh j]
  simp only [Ideal.maximumf_def, Ideal.addf_def, Ideal.mulf_def, Ideal.subf_def, Ideal.hostUnary_rsqrt_def,
    Ideal.ofBits_def, bnRelu, cur1]

end second

variable (x0) (x1) (x2) (x3) (x4) (x5) (x6) (x7) (x8) (x9)

theorem hfinal_read (e : Fin 800000) (j : Fin 32) :
    val_main_v78 (F := Ideal) x0 x1 x2 x3 x4 x5 x6 x7 x8 x9 (ix2 e j)
      = refOut (cur2 (val_main_v10 (F := Ideal) x0 x9)) (cur2 (val_main_v17 (F := Ideal) x0 x9)) (cur2 x1) (cur1 x2)
          (cur1 x3) (cur1 x4) (cur2 x5) (cur1 x6) (cur1 x7) (cur1 x8) e j := by
  unfold refOut
  exact bn2_read _ (lin2_read _ (bn1_read _ lin1_read)) e j

end Cert.ReferenceIdeal.RefValue

end
-- ==== Proof.RefBridge.lean ====
import proofs.«416909_j55972013802026_3_alg».proof.Proof.RefRead
import proofs.«416909_j55972013802026_3_alg».proof.Proof.Spec
import proofs.«416909_j55972013802026_3_alg».proof.Proof.Gen.KernelIdeal

/-! Both programs gather and scatter with the same index arrays; with every index in range a clamped gather reads the indexed row. -/

noncomputable section

namespace Cert.Proof.Parts

open Idealize.ShloMosaic Idealize.ShloMosaic.ValueIdx

theorem scatter_rec_eq : Cert.KernelIdeal.scatter_S50000x32_S800000x1_S800000x32_1_0_0_1 = Cert.ReferenceIdeal.scatter_S50000x32_S800000x1_S800000x32_1_0_0_1 := rfl

abbrev IK0 (x9 : (⟨Cert.KernelIdeal.S2x800000, .i32⟩ : BufTy).Contents (Elt Ideal)) : (⟨Cert.KernelIdeal.S800000, .i32⟩ : BufTy).Contents (Elt Ideal) :=
  shapeCast _ (extractStridedSlice Cert.KernelIdeal.S1x800000 ![0, 0] x9 Cert.KernelIdeal.Facts₀.slices_S2x800000_S1x800000_0_0)
    Cert.KernelIdeal.Facts₀.shapeCasts_S1x800000_S800000

abbrev IK1 (x9 : (⟨Cert.KernelIdeal.S2x800000, .i32⟩ : BufTy).Contents (Elt Ideal)) : (⟨Cert.KernelIdeal.S800000, .i32⟩ : BufTy).Contents (Elt Ideal) :=
  shapeCast _ (extractStridedSlice Cert.KernelIdeal.S1x800000 ![1, 0] x9 Cert.KernelIdeal.Facts₀.slices_S2x800000_S1x800000_1_0)
    Cert.KernelIdeal.Facts₀.shapeCasts_S1x800000_S800000

theorem IK0_eq (x9 : (⟨Cert.KernelIdeal.S2x800000, .i32⟩ : BufTy).Contents (Elt Ideal)) : IK0 x9 = Cert.ReferenceIdeal.ReadP.val_main_v1 (F := Ideal) x9 := by
  unfold Cert.ReferenceIdeal.ReadP.val_main_v1 Cert.ReferenceIdeal.ReadP.val_main_v0
  rfl

theorem IK1_eq (x9 : (⟨Cert.KernelIdeal.S2x800000, .i32⟩ : BufTy).Contents (Elt Ideal)) : IK1 x9 = Cert.ReferenceIdeal.ReadP.val_main_v3 (F := Ideal) x9 := by
  unfold Cert.ReferenceIdeal.ReadP.val_main_v3 Cert.ReferenceIdeal.ReadP.val_main_v2
  rfl

theorem IK0_apply (x9 : (⟨Cert.KernelIdeal.S2x800000, .i32⟩ : BufTy).Contents (Elt Ideal)) (e : Fin 800000) :
    IK0 x9 (ix1 e) = x9 (ix2 0 e) := by
  rw [IK0_eq, Cert.ReferenceIdeal.ReadP.val_main_v1_apply, Cert.ReferenceIdeal.ReadP.val_main_v0_apply]
  exact congrArg x9 (funext fun a => Fin.ext (by
    match a with
    | ⟨0, _⟩ => rfl
    | ⟨1, _⟩ => show e.val % 800000 = e.val; exact Nat.mod_eq_of_lt e.isLt))

theorem IK1_apply (x9 : (⟨Cert.KernelIdeal.S2x800000, .i32⟩ : BufTy).Contents (Elt Ideal)) (e : Fin 800000) :
    IK1 x9 (ix1 e) = x9 (ix2 1 e) := by
  rw [IK1_eq, Cert.ReferenceIdeal.ReadP.val_main_v3_apply, Cert.ReferenceIdeal.ReadP.val_main_v2_apply]
  exact congrArg x9 (funext fun a => Fin.ext (by
    match a with
    | ⟨0, _⟩ => rfl
    | ⟨1, _⟩ => show e.val % 800000 = e.val; exact Nat.mod_eq_of_lt e.isLt))

theorem idx_range0 (x9 : (⟨Cert.KernelIdeal.S2x800000, .i32⟩ : BufTy).Contents (Elt Ideal))
    (h : ∀ i : Cert.KernelIdeal.S2x800000.Idx, 0 ≤ (x9 i).toInt ∧ (x9 i).toInt < 50000) :
    ∀ e : Fin 800000, 0 ≤ (IK0 x9 (ix1 e)).toInt ∧ (IK0 x9 (ix1 e)).toInt < 50000 := fun e => by
  rw [IK0_apply]; exact h _

theorem idx_range1 (x9 : (⟨Cert.KernelIdeal.S2x800000, .i32⟩ : BufTy).Contents (Elt Ideal))
    (h : ∀ i : Cert.KernelIdeal.S2x800000.Idx, 0 ≤ (x9 i).toInt ∧ (x9 i).toInt < 50000) :
    ∀ e : Fin 800000, 0 ≤ (IK1 x9 (ix1 e)).toInt ∧ (IK1 x9 (ix1 e)).toInt < 50000 := fun e => by
  rw [IK1_apply]; exact h _

theorem kgather0 (x0 : (⟨Cert.KernelIdeal.S50000x32, .f32⟩ : BufTy).Contents (Elt Ideal)) (x9 : (⟨Cert.KernelIdeal.S2x800000, .i32⟩ : BufTy).Contents (Elt Ideal)) :
    Host.gather Cert.KernelIdeal.gather_S50000x32_S800000x1_S800000x32_1_0_n_n_0_1_132 x0
      (broadcastInDim Cert.KernelIdeal.S800000x1 ![0] Cert.KernelIdeal.Facts₀.bcast_S800000_S800000x1_0
        (select (cmpi .slt (IK0 x9) (broadcastInDim Cert.KernelIdeal.S800000 ![] Cert.KernelIdeal.Facts₀.bcast_S_S800000 (constantI Cert.KernelIdeal.S_ 32 0#32)))
          (addi (IK0 x9) (broadcastInDim Cert.KernelIdeal.S800000 ![] Cert.KernelIdeal.Facts₀.bcast_S_S800000 (constantI Cert.KernelIdeal.S_ 32 50000#32)))
          (IK0 x9)))
      = Cert.ReferenceIdeal.ReadP.val_main_v10 (F := Ideal) x0 x9 := by
  unfold Cert.ReferenceIdeal.ReadP.val_main_v10 Cert.ReferenceIdeal.ReadP.val_main_v9 Cert.ReferenceIdeal.ReadP.val_main_v8 Cert.ReferenceIdeal.ReadP.val_main_v7 Cert.ReferenceIdeal.ReadP.val_main_v6 Cert.ReferenceIdeal.ReadP.val_main_c_0
    Cert.ReferenceIdeal.ReadP.val_main_v5 Cert.ReferenceIdeal.ReadP.val_main_v4 Cert.ReferenceIdeal.ReadP.val_main_c Cert.ReferenceIdeal.ReadP.val_main_v1 Cert.ReferenceIdeal.ReadP.val_main_v0
  rfl

theorem kgather1 (x0 : (⟨Cert.KernelIdeal.S50000x32, .f32⟩ : BufTy).Contents (Elt Ideal)) (x9 : (⟨Cert.KernelIdeal.S2x800000, .i32⟩ : BufTy).Contents (Elt Ideal)) :
    Host.gather Cert.KernelIdeal.gather_S50000x32_S800000x1_S800000x32_1_0_n_n_0_1_132 x0
      (broadcastInDim Cert.KernelIdeal.S800000x1 ![0] Cert.KernelIdeal.Facts₀.bcast_S800000_S800000x1_0
        (select (cmpi .slt (IK1 x9) (broadcastInDim Cert.KernelIdeal.S800000 ![] Cert.KernelIdeal.Facts₀.bcast_S_S800000 (constantI Cert.KernelIdeal.S_ 32 0#32)))
          (addi (IK1 x9) (broadcastInDim Cert.KernelIdeal.S800000 ![] Cert.KernelIdeal.Facts₀.bcast_S_S800000 (constantI Cert.KernelIdeal.S_ 32 50000#32)))
          (IK1 x9)))
      = Cert.ReferenceIdeal.ReadP.val_main_v17 (F := Ideal) x0 x9 := by
  unfold Cert.ReferenceIdeal.ReadP.val_main_v17 Cert.ReferenceIdeal.ReadP.val_main_v16 Cert.ReferenceIdeal.ReadP.val_main_v15 Cert.ReferenceIdeal.ReadP.val_main_v14 Cert.ReferenceIdeal.ReadP.val_main_v13 Cert.ReferenceIdeal.ReadP.val_main_c_2
    Cert.ReferenceIdeal.ReadP.val_main_v12 Cert.ReferenceIdeal.ReadP.val_main_v11 Cert.ReferenceIdeal.ReadP.val_main_c_1 Cert.ReferenceIdeal.ReadP.val_main_v3 Cert.ReferenceIdeal.ReadP.val_main_v2
  rfl

theorem gather_real0 (x0 : (⟨Cert.KernelIdeal.S50000x32, .f32⟩ : BufTy).Contents (Elt Ideal)) (x9 : (⟨Cert.KernelIdeal.S2x800000, .i32⟩ : BufTy).Contents (Elt Ideal))
    (h0 : ∀ i, ∃ r : ℝ, x0 i = (r : EReal)) :
    EdgeNet.Fin2 (EdgeNet.cur2 (Cert.ReferenceIdeal.ReadP.val_main_v10 (F := Ideal) x0 x9)) := fun a b => by
  unfold EdgeNet.cur2 Cert.ReferenceIdeal.ReadP.val_main_v10 Host.gather
  exact h0 _

theorem gather_real1 (x0 : (⟨Cert.KernelIdeal.S50000x32, .f32⟩ : BufTy).Contents (Elt Ideal)) (x9 : (⟨Cert.KernelIdeal.S2x800000, .i32⟩ : BufTy).Contents (Elt Ideal))
    (h0 : ∀ i, ∃ r : ℝ, x0 i = (r : EReal)) :
    EdgeNet.Fin2 (EdgeNet.cur2 (Cert.ReferenceIdeal.ReadP.val_main_v17 (F := Ideal) x0 x9)) := fun a b => by
  unfold EdgeNet.cur2 Cert.ReferenceIdeal.ReadP.val_main_v17 Host.gather
  exact h0 _

theorem zeros_eq :
    broadcastInDim Cert.KernelIdeal.S50000x32 ![] Cert.KernelIdeal.Facts₀.bcast_S_S50000x32 (constant (F := Ideal) Cert.KernelIdeal.S_ .f32 0x00000000#32)
      = Cert.ReferenceIdeal.ReadP.val_main_v79 (F := Ideal) := by
  unfold Cert.ReferenceIdeal.ReadP.val_main_v79 Cert.ReferenceIdeal.ReadP.val_main_cst_12
  rfl

theorem sidx_eq (x9 : (⟨Cert.KernelIdeal.S2x800000, .i32⟩ : BufTy).Contents (Elt Ideal)) :
    broadcastInDim Cert.KernelIdeal.S800000x1 ![0] Cert.KernelIdeal.Facts₀.bcast_S800000_S800000x1_0 (IK0 x9)
      = Cert.ReferenceIdeal.ReadP.val_main_v80 (F := Ideal) x9 := by
  unfold Cert.ReferenceIdeal.ReadP.val_main_v80 Cert.ReferenceIdeal.ReadP.val_main_v1 Cert.ReferenceIdeal.ReadP.val_main_v0
  rfl

theorem scatter_eq (a : FVec Ideal Cert.KernelIdeal.S50000x32 .f32) (b : IVec Cert.KernelIdeal.S800000x1 32) (u : FVec Ideal Cert.KernelIdeal.S800000x32 .f32) :
    Host.scatterAdd Cert.KernelIdeal.scatter_S50000x32_S800000x1_S800000x32_1_0_0_1 a b u = Host.scatterAdd Cert.ReferenceIdeal.scatter_S50000x32_S800000x1_S800000x32_1_0_0_1 a b u := by
  rw [scatter_rec_eq]

end Cert.Proof.Parts

end
-- ==== Proof.PreFacts.lean ====
import proofs.«416909_j55972013802026_3_alg».proof.Pre_finite_inputs
import Idealize.ShloMosaic.Lib.ReduceAll
import Idealize.ShloMosaic.Lib.ValueIdx
import Idealize.ShloMosaic.PureOps.Ideal

/-! What the precondition gives: every float entry is a real number and every edge index lies in [0, 50000). -/

noncomputable section

namespace Cert.Pre_finite_inputs.Decode

open Idealize.ShloMosaic Idealize.ShloMosaic.ValueIdx Cert.Pre_finite_inputs

variable [Facts]

instance : Subsingleton S_.Idx := ⟨fun a b => funext fun d => d.elim0⟩

theorem andi_at {s : Shape} (x y : IVec s 1) (i : s.Idx) : andi x y i = IntOp.andi (x i) (y i) := rfl

theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have hinf : Ideal.ofBits .f32 0x7F800000#32 = (⊤ : EReal) := by simp [Ideal.ofBits, Ideal.ieee]
  change Ideal.cmp .olt (max x (-x)) (Ideal.ofBits .f32 0x7F800000#32) = 1#1 at h
  rw [hinf] at h
  induction x using EReal.rec with
  | bot => exfalso; revert h; simp [Ideal.cmp]
  | coe r => exact ⟨r, rfl⟩
  | top => exfalso; revert h; simp [Ideal.cmp]

theorem decode (a0 : FVec Ideal S50000x32 .f32) (a1 : FVec Ideal S64x32 .f32) (a2 a3 a4 : FVec Ideal S32 .f32)
    (a5 : FVec Ideal S32x32 .f32) (a6 a7 a8 : FVec Ideal S32 .f32) (a9 : IVec S2x800000 32)
    (h : fn (F := Ideal) a0 a1 a2 a3 a4 a5 a6 a7 a8 a9 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) ∧ (∀ i, ∃ r : ℝ, a8 i = (r : EReal))
    ∧ (∀ i, 0 ≤ (a9 i).toInt ∧ (a9 i).toInt < 50000) := by
  have h0 := congrFun h ix0
  dsimp only [fn, fn_part1, fn_part2] at h0
  simp only [andi_at, IntOp.andi_eq_one] at h0
  obtain ⟨⟨⟨⟨⟨⟨⟨⟨⟨h_0, h_1⟩, h_2⟩, h_3⟩, h_4⟩, h_5⟩, h_6⟩, h_7⟩, h_8⟩, h_9⟩ := h0
  refine ⟨fun i => real_of_abs_lt _ (Host.reduce_andi_all _ _ _ _ _ h_0 i), fun i => real_of_abs_lt _ (Host.reduce_andi_all _ _ _ _ _ h_1 i),
    fun i => real_of_abs_lt _ (Host.reduce_andi_all _ _ _ _ _ h_2 i), fun i => real_of_abs_lt _ (Host.reduce_andi_all _ _ _ _ _ h_3 i),
    fun i => real_of_abs_lt _ (Host.reduce_andi_all _ _ _ _ _ h_4 i), fun i => real_of_abs_lt _ (Host.reduce_andi_all _ _ _ _ _ h_5 i),
    fun i => real_of_abs_lt _ (Host.reduce_andi_all _ _ _ _ _ h_6 i), fun i => real_of_abs_lt _ (Host.reduce_andi_all _ _ _ _ _ h_7 i),
    fun i => real_of_abs_lt _ (Host.reduce_andi_all _ _ _ _ _ h_8 i), fun i => ?_⟩
  have h9 := Host.reduce_andi_all _ _ _ _ _ h_9 i
  rw [andi_at, IntOp.andi_eq_one] at h9
  obtain ⟨hge, hlt⟩ := h9
  have hge' : IntOp.cmpi .sge (a9 i) (0#32) = 1#1 := hge
  have hlt' : IntOp.cmpi .slt (a9 i) (50000#32) = 1#1 := hlt
  rw [IntOp.cmpi_sge] at hge'
  rw [IntOp.cmpi_slt] at hlt'
  exact ⟨by simpa using hge', by simpa using hlt'⟩

end Cert.Pre_finite_inputs.Decode

end
-- ==== Proof.KI.HostTake.lean ====
import proofs.«416909_j55972013802026_3_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Reduce

/-! The two row gathers: with every index in range the guarded gather returns the indexed row. -/

set_option maxRecDepth 16384

noncomputable section

namespace Cert.KernelIdeal.Fr

open Cert.KernelIdeal Cert.KernelIdeal.Gen
open Idealize.ShloMosaic Idealize.ShloMosaic.TcCoe
open Idealize.ShloMosaic.ValueIdx

theorem take_wrap_eq (w : BitVec 32) (h0 : 0 ≤ w.toInt) :
    Scalar.select (IntOp.cmpi .slt w 0#32) (IntOp.addi w 50000#32) w = w := by
  have h : w.slt 0#32 = false := by
    rw [Bool.eq_false_iff]
    intro hs
    have h1 := BitVec.slt_iff_toInt_lt.mp hs
    have h00 : (0#32 : BitVec 32).toInt = 0 := by decide
    omega
  show Scalar.select (BitVec.ofBool (w.slt 0#32)) _ _ = _
  rw [h]
  exact select_zero _ _

theorem take_inrange (w : BitVec 32) (h0 : 0 ≤ w.toInt) (h1 : w.toInt < 50000) :
    IntOp.andi (IntOp.cmpi .sge w 0#32) (IntOp.cmpi .sle w 49999#32) = 1#1 := by
  have ha : (0#32 : BitVec 32).sle w = true := by
    rw [BitVec.sle_iff_toInt_le]
    have h00 : (0#32 : BitVec 32).toInt = 0 := by decide
    omega
  have hb : w.sle 49999#32 = true := by
    rw [BitVec.sle_iff_toInt_le]
    have h49 : (49999#32 : BitVec 32).toInt = 49999 := by decide
    omega
  show IntOp.andi (BitVec.ofBool ((0#32 : BitVec 32).sle w)) (BitVec.ofBool (w.sle 49999#32)) = 1#1
  rw [ha, hb]
  decide

theorem take_foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact take_foldl_andi_one f hf l

theorem take_reduce_andi_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact take_foldl_andi_one x hx _

def takeCol (x : IVec S800000 32) : IVec S800000x1 32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

def takeMask (v : IVec S800000x1 32) : IVec S800000 1 :=
  Host.reduce IntOp.andi
    (andi (cmpi .sge v (broadcastInDim S800000x1 ![] bcast_S_S800000x1 (constantI S_ 32 0#32)))
      (cmpi .sle v (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

theorem takeCol_apply (x : IVec S800000 32) (hx : ∀ i : S800000.Idx, 0 ≤ (x i).toInt ∧ (x i).toInt < 50000)
    (i : S800000x1.Idx) : ∃ k : S800000.Idx, takeCol x i = x k := by
  unfold takeCol broadcastInDim
  exact ⟨_, take_wrap_eq _ (hx _).1⟩

theorem takeMask_one (x : IVec S800000 32) (hx : ∀ i : S800000.Idx, 0 ≤ (x i).toInt ∧ (x i).toInt < 50000)
    (e : S800000.Idx) : takeMask (takeCol x) e = 1#1 := by
  unfold takeMask
  refine take_reduce_andi_one _ _ _ _ (fun i => ?_) rfl e
  obtain ⟨k, hk⟩ := takeCol_apply x hx i
  show IntOp.andi (IntOp.cmpi .sge (takeCol x i) 0#32) (IntOp.cmpi .sle (takeCol x i) 49999#32) = 1#1
  rw [hk]
  exact take_inrange _ (hx k).1 (hx k).2

theorem take_ofBuf_toBuf {T : BufTy} (x : StableHlo.TRef sig T) (v : T.Contents (Elt Ideal)) : x.ofBuf (x.toBuf v) = v := by
  obtain ⟨r, h, h1, h2⟩ := x
  subst h
  rfl

variable (W : Valuation τ sig (Elt Ideal))

theorem take_leaf_v1 : (StableHlo.TRef.of main_v1 (by rfl) (by decide) (by rfl) : StableHlo.TRef sig ⟨S800000, .i32⟩).ofBuf (W (Proc.devRef .tc main_v1))
    = (W main_v1 : Vec Ideal S800000 .i32) := rfl
theorem take_leaf_v3 : (StableHlo.TRef.of main_v3 (by rfl) (by decide) (by rfl) : StableHlo.TRef sig ⟨S800000, .i32⟩).ofBuf (W (Proc.devRef .tc main_v3))
    = (W main_v3 : Vec Ideal S800000 .i32) := rfl
theorem take_leaf_arg0 : (StableHlo.TRef.of main_arg0 (by rfl) (by decide) (by rfl) : StableHlo.TRef sig ⟨S50000x32, .f32⟩).ofBuf (W (Proc.devRef .tc main_arg0))
    = (W main_arg0 : Vec Ideal S50000x32 .f32) := rfl
theorem take_root_v4 (Z : Vec Ideal S800000x32 .f32) :
    ((StableHlo.TRef.of main_v4 (by rfl) (by decide) (by rfl) : StableHlo.TRef sig ⟨S800000x32, .f32⟩).toBuf Z : Vec Ideal S800000x32 .f32) = Z := rfl
theorem take_root_v5 (Z : Vec Ideal S800000x32 .f32) :
    ((StableHlo.TRef.of main_v5 (by rfl) (by decide) (by rfl) : StableHlo.TRef sig ⟨S800000x32, .f32⟩).toBuf Z : Vec Ideal S800000x32 .f32) = Z := rfl

theorem pre_v1 : (StableHlo.after (hostOps0 (F := Ideal)) W main_v1 : Vec Ideal S800000 .i32)
    = shapeCast S800000 (extractStridedSlice S1x800000 ![0, 0] (W main_arg9 : Vec Ideal S2x800000 .i32) slices_S2x800000_S1x800000_0_0)
        shapeCasts_S1x800000_S800000 := by
  dsimp only [hostOps0]
  after_results
  rfl

theorem pre_v3 : (StableHlo.after (hostOps0 (F := Ideal)) W main_v3 : Vec Ideal S800000 .i32)
    = shapeCast S800000 (extractStridedSlice S1x800000 ![1, 0] (W main_arg9 : Vec Ideal S2x800000 .i32) slices_S2x800000_S1x800000_1_0)
        shapeCasts_S1x800000_S800000 := by
  dsimp only [hostOps0]
  after_results
  rfl

theorem pre_v1_apply (e : Fin 800000) :
    (StableHlo.after (hostOps0 (F := Ideal)) W main_v1 : Vec Ideal S800000 .i32) (ix1 e)
      = (W main_arg9 : Vec Ideal S2x800000 .i32) (ix2 (0 : Fin 2) e) := by
  rw [pre_v1]
  refine (shapeCast_1a_a_apply _ _ e).trans ?_
  exact slice2_axis0_apply 0 _ _ (0 : Fin 1) e (0 : Fin 2) rfl

theorem pre_v3_apply (e : Fin 800000) :
    (StableHlo.after (hostOps0 (F := Ideal)) W main_v3 : Vec Ideal S800000 .i32) (ix1 e)
      = (W main_arg9 : Vec Ideal S2x800000 .i32) (ix2 (1 : Fin 2) e) := by
  rw [pre_v3]
  refine (shapeCast_1a_a_apply _ _ e).trans ?_
  exact slice2_axis0_apply 1 _ _ (0 : Fin 1) e (1 : Fin 2) rfl

theorem take_v4_term : (StableHlo.after (hostOps0_1 (F := Ideal)) W main_v4 : Vec Ideal S800000x32 .f32)
    = select (broadcastInDim S800000x32 ![0] bcast_S800000_S800000x32_0 (takeMask (takeCol (W main_v1 : Vec Ideal S800000 .i32))))
        (Host.gather gather_S50000x32_S800000x1_S800000x32_1_0_n_n_0_1_132 (W main_arg0 : Vec Ideal S50000x32 .f32)
          (takeCol (W main_v1 : Vec Ideal S800000 .i32)))
        (broadcastInDim S800000x32 ![] bcast_S_S800000x32 (constant (F := Ideal) S_ .f32 0x7FC00000#32)) := by
  dsimp only [hostOps0_1]
  after_results_simp
  simp only [take_ofBuf_toBuf, take_leaf_v1, take_leaf_arg0]
  refine (take_root_v4 _).trans ?_
  unfold takeMask takeCol
  rfl

theorem take_v5_term : (StableHlo.after (hostOps0_2 (F := Ideal)) W main_v5 : Vec Ideal S800000x32 .f32)
    = select (broadcastInDim S800000x32 ![0] bcast_S800000_S800000x32_0 (takeMask (takeCol (W main_v3 : Vec Ideal S800000 .i32))))
        (Host.gather gather_S50000x32_S800000x1_S800000x32_1_0_n_n_0_1_132 (W main_arg0 : Vec Ideal S50000x32 .f32)
          (takeCol (W main_v3 : Vec Ideal S800000 .i32)))
        (broadcastInDim S800000x32 ![] bcast_S_S800000x32 (constant (F := Ideal) S_ .f32 0x7FC00000#32)) := by
  dsimp only [hostOps0_2]
  after_results_simp
  simp only [take_ofBuf_toBuf, take_leaf_v3, take_leaf_arg0]
  refine (take_root_v5 _).trans ?_
  unfold takeMask takeCol
  rfl

theorem take_select_all (x : IVec S800000 32) (hx : ∀ i : S800000.Idx, 0 ≤ (x i).toInt ∧ (x i).toInt < 50000)
    (A B : Vec Ideal S800000x32 .f32) :
    select (broadcastInDim S800000x32 ![0] bcast_S800000_S800000x32_0 (takeMask (takeCol x))) A B = A := by
  funext j
  rw [select_apply, show broadcastInDim S800000x32 ![0] bcast_S800000_S800000x32_0 (takeMask (takeCol x)) j = 1#1 from by
    unfold broadcastInDim
    exact takeMask_one x hx _]
  exact select_one _ _

theorem take_v4 (hidx : ∀ i : S800000.Idx, 0 ≤ ((W main_v1 : Vec Ideal S800000 .i32) i).toInt
      ∧ ((W main_v1 : Vec Ideal S800000 .i32) i).toInt < 50000) :
    (StableHlo.after (hostOps0_1 (F := Ideal)) W main_v4 : Vec Ideal S800000x32 .f32)
      = Host.gather gather_S50000x32_S800000x1_S800000x32_1_0_n_n_0_1_132 (W main_arg0 : Vec Ideal S50000x32 .f32)
          (broadcastInDim S800000x1 ![0] bcast_S800000_S800000x1_0
            (select (cmpi .slt (W main_v1 : Vec Ideal S800000 .i32) (broadcastInDim S800000 ![] bcast_S_S800000 (constantI S_ 32 0#32)))
              (addi (W main_v1 : Vec Ideal S800000 .i32) (broadcastInDim S800000 ![] bcast_S_S800000 (constantI S_ 32 50000#32)))
              (W main_v1 : Vec Ideal S800000 .i32))) := by
  rw [take_v4_term, take_select_all _ hidx]
  rfl

theorem take_v5 (hidx : ∀ i : S800000.Idx, 0 ≤ ((W main_v3 : Vec Ideal S800000 .i32) i).toInt
      ∧ ((W main_v3 : Vec Ideal S800000 .i32) i).toInt < 50000) :
    (StableHlo.after (hostOps0_2 (F := Ideal)) W main_v5 : Vec Ideal S800000x32 .f32)
      = Host.gather gather_S50000x32_S800000x1_S800000x32_1_0_n_n_0_1_132 (W main_arg0 : Vec Ideal S50000x32 .f32)
          (broadcastInDim S800000x1 ![0] bcast_S800000_S800000x1_0
            (select (cmpi .slt (W main_v3 : Vec Ideal S800000 .i32) (broadcastInDim S800000 ![] bcast_S_S800000 (constantI S_ 32 0#32)))
              (addi (W main_v3 : Vec Ideal S800000 .i32) (broadcastInDim S800000 ![] bcast_S_S800000 (constantI S_ 32 50000#32)))
              (W main_v3 : Vec Ideal S800000 .i32))) := by
  rw [take_v5_term, take_select_all _ hidx]
  rfl

end Cert.KernelIdeal.Fr

end
-- ==== Proof.KI.HostPre.lean ====
import proofs.«416909_j55972013802026_3_alg».proof.Proof.Gen.KernelIdeal.Launch
import proofs.«416909_j55972013802026_3_alg».proof.Proof.Spec
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

/-! The host operations before the first call, read at an index: four edges packed to a row, block-diagonal weights, vectors tiled four times. -/

set_option maxRecDepth 16384

noncomputable section

namespace Cert.KernelIdeal.Fr

open Cert.KernelIdeal Cert.KernelIdeal.Gen
open Idealize.ShloMosaic Idealize.ShloMosaic.TcCoe
open Idealize.ShloMosaic.ValueIdx

namespace HostPre

section Layout
variable {α : Type}

theorem cols4_apply (f : Fin 4 → (S32x32.Idx → α)) (r : Fin 32) (s : Fin 128) :
    concatenate S32x128 1 [⟨S32x32, f 0⟩, ⟨S32x32, f 1⟩, ⟨S32x32, f 2⟩, ⟨S32x32, f 3⟩]
        concatenates_S32x32_S32x32_S32x32_S32x32_S32x128_d1 (ix2 r s)
      = f ⟨s.val / 32, by have := s.isLt; omega⟩ (ix2 r ⟨s.val % 32, Nat.mod_lt _ (by decide)⟩) :=
  concatenate_ofFn_apply (t := S32x128) (s₁ := S32x32) (1 : Fin 2) f
    concatenates_S32x32_S32x32_S32x32_S32x32_S32x128_d1 rfl 32 rfl (ix2 r s) ⟨s.val / 32, by have := s.isLt; omega⟩ rfl
    (ix2 r ⟨s.val % 32, Nat.mod_lt _ (by decide)⟩) rfl
    (fun b hb => by match b with | ⟨0, _⟩ => rfl | ⟨1, _⟩ => exact absurd rfl hb)

theorem rows4_apply (g : Fin 4 → (S32x128.Idx → α)) (r s : Fin 128) :
    concatenate S128x128 0 [⟨S32x128, g 0⟩, ⟨S32x128, g 1⟩, ⟨S32x128, g 2⟩, ⟨S32x128, g 3⟩]
        concatenates_S32x128_S32x128_S32x128_S32x128_S128x128_d0 (ix2 r s)
      = g ⟨r.val / 32, by have := r.isLt; omega⟩ (ix2 ⟨r.val % 32, Nat.mod_lt _ (by decide)⟩ s) :=
  concatenate_ofFn_apply (t := S128x128) (s₁ := S32x128) (0 : Fin 2) g
    concatenates_S32x128_S32x128_S32x128_S32x128_S128x128_d0 rfl 32 rfl (ix2 r s) ⟨r.val / 32, by have := r.isLt; omega⟩ rfl
    (ix2 ⟨r.val % 32, Nat.mod_lt _ (by decide)⟩ s) rfl
    (fun b hb => by match b with | ⟨0, _⟩ => exact absurd rfl hb | ⟨1, _⟩ => rfl)

end Layout

section Layout2
variable {α : Type}

def bsel (A Z : S32x32.Idx → α) (i k : Fin 4) : S32x32.Idx → α := if k = i then A else Z

def brow (A Z : S32x32.Idx → α) (i : Fin 4) : S32x128.Idx → α :=
  concatenate S32x128 1 [⟨S32x32, bsel A Z i 0⟩, ⟨S32x32, bsel A Z i 1⟩, ⟨S32x32, bsel A Z i 2⟩, ⟨S32x32, bsel A Z i 3⟩]
    concatenates_S32x32_S32x32_S32x32_S32x32_S32x128_d1

def bdiag (A Z : S32x32.Idx → α) : S128x128.Idx → α :=
  concatenate S128x128 0 [⟨S32x128, brow A Z 0⟩, ⟨S32x128, brow A Z 1⟩, ⟨S32x128, brow A Z 2⟩, ⟨S32x128, brow A Z 3⟩]
    concatenates_S32x128_S32x128_S32x128_S32x128_S128x128_d0

theorem bdiag_apply (A Z : S32x32.Idx → α) (r s : Fin 128) :
    bdiag A Z (ix2 r s)
      = if r.val / 32 = s.val / 32 then A (ix2 ⟨r.val % 32, Nat.mod_lt _ (by decide)⟩ ⟨s.val % 32, Nat.mod_lt _ (by decide)⟩)
        else Z (ix2 ⟨r.val % 32, Nat.mod_lt _ (by decide)⟩ ⟨s.val % 32, Nat.mod_lt _ (by decide)⟩) := by
  unfold bdiag
  rw [rows4_apply (brow A Z) r s]
  unfold brow
  rw [cols4_apply (bsel A Z ⟨r.val / 32, by have := r.isLt; omega⟩) ⟨r.val % 32, Nat.mod_lt _ (by decide)⟩ s]
  unfold bsel
  by_cases h : r.val / 32 = s.val / 32
  · rw [if_pos h, if_pos (Fin.ext h.symm)]
  · rw [if_neg h, if_neg (fun e => h (congrArg Fin.val e).symm)]

def tile4 (v : S32.Idx → α) : S1x128.Idx → α :=
  shapeCast S1x128 (shapeCast S128 (broadcastInDim S4x32 ![0, 1] bcast_S1x32_S4x32_0_1 (shapeCast S1x32 v shapeCasts_S32_S1x32))
    shapeCasts_S4x32_S128) shapeCasts_S128_S1x128

theorem tile4_apply (v : S32.Idx → α) (q : Fin 128) :
    tile4 v (ix2 (0 : Fin 1) q) = v (ix1 ⟨q.val % 32, Nat.mod_lt _ (by decide)⟩) := by
  unfold tile4
  refine (shapeCast_a_1a_apply _ _ (0 : Fin 1) q).trans ?_
  refine (shapeCast_apply _ _ (ix1 q) (ix2 (⟨q.val / 32, by have := q.isLt; omega⟩ : Fin 4) (⟨q.val % 32, Nat.mod_lt _ (by decide)⟩ : Fin 32)) ?_).trans ?_
  · rw [Shape.rowMajor_val_two, Shape.rowMajor_val_one]
    show q.val / 32 * 32 + q.val % 32 = q.val
    omega
  refine (broadcastInDim_apply _ _ _ _ (ix2 (0 : Fin 1) (⟨q.val % 32, Nat.mod_lt _ (by decide)⟩ : Fin 32)) ?_).trans ?_
  · intro a
    match a with
    | ⟨0, _⟩ => rfl
    | ⟨1, _⟩ => rfl
  exact shapeCast_a_1a_apply _ _ (0 : Fin 1) _

theorem packed_apply (X : S800000x32.Idx → α) (p : Fin 200000) (q : Fin 128) :
    shapeCast S200000x128 X shapeCasts_S800000x32_S200000x128 (ix2 p q)
      = X (ix2 ⟨4 * p.val + q.val / 32, by have := p.isLt; have := q.isLt; omega⟩ ⟨q.val % 32, Nat.mod_lt _ (by decide)⟩) :=
  shapeCast_apply X _ _ _ (by
    rw [Shape.rowMajor_val_two, Shape.rowMajor_val_two]
    show (4 * p.val + q.val / 32) * 32 + q.val % 32 = p.val * 128 + q.val
    omega)

end Layout2

variable (W : Valuation τ sig (Elt Ideal))

abbrev zblk : S32x32.Idx → EReal := broadcastInDim S32x32 ![] bcast_S_S32x32 (constant (F := Ideal) S_ .f32 0x00000000#32)

theorem zblk_apply (i : S32x32.Idx) : zblk i = EdgeNet.c0 := rfl

theorem v6_term : (StableHlo.after (hostOps0_3 (F := Ideal)) W main_v6 : Vec Ideal S200000x128 .f32)
    = shapeCast S200000x128 (W main_v4 : Vec Ideal S800000x32 .f32) shapeCasts_S800000x32_S200000x128 := by
  dsimp only [hostOps0_3]
  after_results
  rfl

theorem v7_term : (StableHlo.after (hostOps0_3 (F := Ideal)) W main_v7 : Vec Ideal S200000x128 .f32)
    = shapeCast S200000x128 (W main_v5 : Vec Ideal S800000x32 .f32) shapeCasts_S800000x32_S200000x128 := by
  dsimp only [hostOps0_3]
  after_results
  rfl

theorem v15_term : (StableHlo.after (hostOps0_3 (F := Ideal)) W main_v15 : Vec Ideal S128x128 .f32)
    = bdiag (extractStridedSlice S32x32 ![0, 0] (W main_arg1 : Vec Ideal S64x32 .f32) slices_S64x32_S32x32_0_0) zblk := by
  dsimp only [hostOps0_3]
  after_results
  rfl

theorem v21_term : (StableHlo.after (hostOps0_3 (F := Ideal)) W main_v21 : Vec Ideal S128x128 .f32)
    = bdiag (extractStridedSlice S32x32 ![32, 0] (W main_arg1 : Vec Ideal S64x32 .f32) slices_S64x32_S32x32_32_0) zblk := by
  dsimp only [hostOps0_3]
  after_results
  rfl

theorem v27_term : (StableHlo.after (hostOps0_3 (F := Ideal)) W main_v27 : Vec Ideal S128x128 .f32)
    = bdiag (W main_arg5 : Vec Ideal S32x32 .f32) zblk := by
  dsimp only [hostOps0_3]
  after_results
  rfl

theorem v31_term : (StableHlo.after (hostOps0_3 (F := Ideal)) W main_v31 : Vec Ideal S1x128 .f32)
    = tile4 (W main_arg2 : Vec Ideal S32 .f32) := by
  dsimp only [hostOps0_3]
  after_results
  rfl

theorem v35_term : (StableHlo.after (hostOps0_3 (F := Ideal)) W main_v35 : Vec Ideal S1x128 .f32)
    = tile4 (W main_arg3 : Vec Ideal S32 .f32) := by
  dsimp only [hostOps0_3]
  after_results
  rfl

theorem v39_term : (StableHlo.after (hostOps0_3 (F := Ideal)) W main_v39 : Vec Ideal S1x128 .f32)
    = tile4 (W main_arg4 : Vec Ideal S32 .f32) := by
  dsimp only [hostOps0_3]
  after_results
  rfl

theorem v43_term : (StableHlo.after (hostOps0_3 (F := Ideal)) W main_v43 : Vec Ideal S1x128 .f32)
    = tile4 (W main_arg6 : Vec Ideal S32 .f32) := by
  dsimp only [hostOps0_3]
  after_results
  rfl

theorem v47_term : (StableHlo.after (hostOps0_3 (F := Ideal)) W main_v47 : Vec Ideal S1x128 .f32)
    = tile4 (W main_arg7 : Vec Ideal S32 .f32) := by
  dsimp only [hostOps0_3]
  after_results
  rfl

theorem v51_term : (StableHlo.after (hostOps0_3 (F := Ideal)) W main_v51 : Vec Ideal S1x128 .f32)
    = tile4 (W main_arg8 : Vec Ideal S32 .f32) := by
  dsimp only [hostOps0_3]
  after_results
  rfl

end HostPre

open HostPre

variable (W : Valuation τ sig (Elt Ideal))

theorem pre_v6 (p : Fin 200000) (q : Fin 128) :
    EdgeNet.cur2 (StableHlo.after (hostOps0_3 (F := Ideal)) W main_v6 : Vec Ideal S200000x128 .f32) p q
      = EdgeNet.cur2 (W main_v4 : Vec Ideal S800000x32 .f32)
          ⟨4 * p.val + q.val / 32, by have := p.isLt; have := q.isLt; omega⟩ ⟨q.val % 32, Nat.mod_lt _ (by decide)⟩ := by
  dsimp only [EdgeNet.cur2, EdgeNet.cur1]
  rw [v6_term]
  exact packed_apply _ p q

theorem pre_v7 (p : Fin 200000) (q : Fin 128) :
    EdgeNet.cur2 (StableHlo.after (hostOps0_3 (F := Ideal)) W main_v7 : Vec Ideal S200000x128 .f32) p q
      = EdgeNet.cur2 (W main_v5 : Vec Ideal S800000x32 .f32)
          ⟨4 * p.val + q.val / 32, by have := p.isLt; have := q.isLt; omega⟩ ⟨q.val % 32, Nat.mod_lt _ (by decide)⟩ := by
  dsimp only [EdgeNet.cur2, EdgeNet.cur1]
  rw [v7_term]
  exact packed_apply _ p q

theorem pre_v15 (r s : Fin 128) :
    EdgeNet.cur2 (StableHlo.after (hostOps0_3 (F := Ideal)) W main_v15 : Vec Ideal S128x128 .f32) r s
      = if r.val / 32 = s.val / 32 then
          EdgeNet.cur2 (W main_arg1 : Vec Ideal S64x32 .f32) ⟨r.val % 32, by have := Nat.mod_lt r.val (show 0 < 32 by decide); omega⟩ ⟨s.val % 32, Nat.mod_lt _ (by decide)⟩
        else EdgeNet.c0 := by
  dsimp only [EdgeNet.cur2, EdgeNet.cur1]
  rw [v15_term, bdiag_apply]
  by_cases h : r.val / 32 = s.val / 32
  · rw [if_pos h, if_pos h]
    exact slice2_axis0_apply 0 _ _ _ _ _ (by show r.val % 32 = 0 + r.val % 32; omega)
  · rw [if_neg h, if_neg h]
    exact zblk_apply _

theorem pre_v21 (r s : Fin 128) :
    EdgeNet.cur2 (StableHlo.after (hostOps0_3 (F := Ideal)) W main_v21 : Vec Ideal S128x128 .f32) r s
      = if r.val / 32 = s.val / 32 then
          EdgeNet.cur2 (W main_arg1 : Vec Ideal S64x32 .f32) ⟨r.val % 32 + 32, by have := Nat.mod_lt r.val (show 0 < 32 by decide); omega⟩ ⟨s.val % 32, Nat.mod_lt _ (by decide)⟩
        else EdgeNet.c0 := by
  dsimp only [EdgeNet.cur2, EdgeNet.cur1]
  rw [v21_term, bdiag_apply]
  by_cases h : r.val / 32 = s.val / 32
  · rw [if_pos h, if_pos h]
    exact slice2_axis0_apply 32 _ _ _ _ _ (by show r.val % 32 + 32 = 32 + r.val % 32; omega)
  · rw [if_neg h, if_neg h]
    exact zblk_apply _

theorem pre_v27 (r s : Fin 128) :
    EdgeNet.cur2 (StableHlo.after (hostOps0_3 (F := Ideal)) W main_v27 : Vec Ideal S128x128 .f32) r s
      = if r.val / 32 = s.val / 32 then
          EdgeNet.cur2 (W main_arg5 : Vec Ideal S32x32 .f32) ⟨r.val % 32, Nat.mod_lt _ (by decide)⟩ ⟨s.val % 32, Nat.mod_lt _ (by decide)⟩
        else EdgeNet.c0 := by
  dsimp only [EdgeNet.cur2, EdgeNet.cur1]
  rw [v27_term, bdiag_apply]
  by_cases h : r.val / 32 = s.val / 32
  · rw [if_pos h, if_pos h]
  · rw [if_neg h, if_neg h]
    exact zblk_apply _

theorem pre_v31 (q : Fin 128) :
    EdgeNet.cur2 (StableHlo.after (hostOps0_3 (F := Ideal)) W main_v31 : Vec Ideal S1x128 .f32) (0 : Fin 1) q
      = EdgeNet.cur1 (W main_arg2 : Vec Ideal S32 .f32) ⟨q.val % 32, Nat.mod_lt _ (by decide)⟩ := by
  dsimp only [EdgeNet.cur2, EdgeNet.cur1]
  rw [v31_term]
  exact tile4_apply _ q

theorem pre_v35 (q : Fin 128) :
    EdgeNet.cur2 (StableHlo.after (hostOps0_3 (F := Ideal)) W main_v35 : Vec Ideal S1x128 .f32) (0 : Fin 1) q
      = EdgeNet.cur1 (W main_arg3 : Vec Ideal S32 .f32) ⟨q.val % 32, Nat.mod_lt _ (by decide)⟩ := by
  dsimp only [EdgeNet.cur2, EdgeNet.cur1]
  rw [v35_term]
  exact tile4_apply _ q

theorem pre_v39 (q : Fin 128) :
    EdgeNet.cur2 (StableHlo.after (hostOps0_3 (F := Ideal)) W main_v39 : Vec Ideal S1x128 .f32) (0 : Fin 1) q
      = EdgeNet.cur1 (W main_arg4 : Vec Ideal S32 .f32) ⟨q.val % 32, Nat.mod_lt _ (by decide)⟩ := by
  dsimp only [EdgeNet.cur2, EdgeNet.cur1]
  rw [v39_term]
  exact tile4_apply _ q

theorem pre_v43 (q : Fin 128) :
    EdgeNet.cur2 (StableHlo.after (hostOps0_3 (F := Ideal)) W main_v43 : Vec Ideal S1x128 .f32) (0 : Fin 1) q
      = EdgeNet.cur1 (W main_arg6 : Vec Ideal S32 .f32) ⟨q.val % 32, Nat.mod_lt _ (by decide)⟩ := by
  dsimp only [EdgeNet.cur2, EdgeNet.cur1]
  rw [v43_term]
  exact tile4_apply _ q

theorem pre_v47 (q : Fin 128) :
    EdgeNet.cur2 (StableHlo.after (hostOps0_3 (F := Ideal)) W main_v47 : Vec Ideal S1x128 .f32) (0 : Fin 1) q
      = EdgeNet.cur1 (W main_arg7 : Vec Ideal S32 .f32) ⟨q.val % 32, Nat.mod_lt _ (by decide)⟩ := by
  dsimp only [EdgeNet.cur2, EdgeNet.cur1]
  rw [v47_term]
  exact tile4_apply _ q

theorem pre_v51 (q : Fin 128) :
    EdgeNet.cur2 (StableHlo.after (hostOps0_3 (F := Ideal)) W main_v51 : Vec Ideal S1x128 .f32) (0 : Fin 1) q
      = EdgeNet.cur1 (W main_arg8 : Vec Ideal S32 .f32) ⟨q.val % 32, Nat.mod_lt _ (by decide)⟩ := by
  dsimp only [EdgeNet.cur2, EdgeNet.cur1]
  rw [v51_term]
  exact tile4_apply _ q

end Cert.KernelIdeal.Fr

end
-- ==== Proof.KI.R0.Pay.lean ====
import proofs.«416909_j55972013802026_3_alg».proof.Proof.KI.R0.Frame
import proofs.«416909_j55972013802026_3_alg».proof.Proof.Spec
import Idealize.ShloMosaic.Lib.Pipeline.Value
import Idealize.ShloMosaic.Lib.ValueIdx
import Idealize.ShloMosaic.Lib.ValueLayout
import Idealize.ShloMosaic.PureOps.Ideal.Laws

/-! First call: what one tile stores, read at an index. -/

set_option maxRecDepth 16384

noncomputable section

namespace Cert.KernelIdeal.Fr.R0

open Cert.KernelIdeal Cert.KernelIdeal.Gen
open Idealize.ShloMosaic Idealize.ShloMosaic.TcCoe Idealize.ShloMosaic.Tactic
open Idealize.SL.Sem
open Idealize.ShloMosaic.Pipeline (Dat Cfg Window BodyObligation cellOf)
open Idealize.ShloMosaic.ValueIdx
open scoped BigOperators

theorem lhs_dot0_0 (i : S4000x128.Idx) (k : dot_S4000x128_S128x128_S4000x128_1_0_0_1_n_n.contr.Idx) :
    (dot_S4000x128_S128x128_S4000x128_1_0_0_1_n_n.lhsIdx i k 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_dot0_1 (i : S4000x128.Idx) (k : dot_S4000x128_S128x128_S4000x128_1_0_0_1_n_n.contr.Idx) :
    (dot_S4000x128_S128x128_S4000x128_1_0_0_1_n_n.lhsIdx i k 1).val = (k ⟨0, by decide⟩).val :=
  dot_S4000x128_S128x128_S4000x128_1_0_0_1_n_n.lhsIdx_val_of_single rfl i k
theorem rhs_dot0_0 (i : S4000x128.Idx) (k : dot_S4000x128_S128x128_S4000x128_1_0_0_1_n_n.contr.Idx) :
    (dot_S4000x128_S128x128_S4000x128_1_0_0_1_n_n.rhsIdx i k 0).val = (k ⟨0, by decide⟩).val :=
  dot_S4000x128_S128x128_S4000x128_1_0_0_1_n_n.rhsIdx_val_of_single rfl i k
theorem rhs_dot0_1 (i : S4000x128.Idx) (k : dot_S4000x128_S128x128_S4000x128_1_0_0_1_n_n.contr.Idx) :
    (dot_S4000x128_S128x128_S4000x128_1_0_0_1_n_n.rhsIdx i k 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

theorem matmul0_read {φ₁ φ₂ : FTy} (a : FVec Ideal S4000x128 φ₁) (b : FVec Ideal S128x128 φ₂) (r : Fin 4000) (q : Fin 128) :
    matmul dot_S4000x128_S128x128_S4000x128_1_0_0_1_n_n none a b (constant (F := Ideal) S4000x128 .f32 0x00000000#32) (ix2 r q)
      = ∑ k : Fin 128, a (ix2 r k) * b (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 r q) ((ValueIdx.contrEquiv1 dot_S4000x128_S128x128_S4000x128_1_0_0_1_n_n 128 rfl rfl).symm k) = ix2 r k := funext fun ax => Fin.ext (by
    match ax with
    | ⟨0, _⟩ => exact lhs_dot0_0 _ _
    | ⟨1, _⟩ => exact (lhs_dot0_1 _ _).trans hk)
  have er : dot_S4000x128_S128x128_S4000x128_1_0_0_1_n_n.rhsIdx (ix2 r q) ((ValueIdx.contrEquiv1 dot_S4000x128_S128x128_S4000x128_1_0_0_1_n_n 128 rfl rfl).symm k) = ix2 k q := funext fun ax => Fin.ext (by
    match ax with
    | ⟨0, _⟩ => exact (rhs_dot0_0 _ _).trans hk
    | ⟨1, _⟩ => exact rhs_dot0_1 _ _)
  rw [el, er]

theorem laneSum0_read (src : FVec Ideal S4000x128 .f32) (q : Fin 128) :
    multiReduction .add [0] S128 src 0x00000000#32 reduces_S4000x128_S128 (.inl rfl) rfl (ix1 q) = ∑ r : Fin 4000, src (ix2 r q) := by
  refine (Ideal.multiReduction_add_single src 0x00000000#32 reduces_S4000x128_S128 (.inl rfl) rfl (ix1 q)).trans ?_
  show ∑ r : Fin 4000, src (reduces_S4000x128_S128.lift (ix1 q) r) = _
  refine Finset.sum_congr rfl fun r _ => congrArg src ?_
  funext ax
  apply Fin.ext
  match ax with
  | ⟨0, _⟩ => rfl
  | ⟨1, _⟩ => rfl

theorem pay4_read (x0 x1 : Vec Ideal S4000x128 .f32) (w0 w1 : Vec Ideal S128x128 .f32) (b : Vec Ideal S1x128 .f32) (r : Fin 4000) (q : Fin 128) :
    k0_pay4 (F := Ideal) x0 x1 w0 w1 b (ix2 r q)
      = (∑ k : Fin 128, EdgeNet.cur2 x0 r k * EdgeNet.cur2 w0 k q) + (∑ k : Fin 128, EdgeNet.cur2 x1 r k * EdgeNet.cur2 w1 k q) + EdgeNet.cur2 b 0 q := by
  unfold k0_pay4
  simp only [shapeCast_self]
  rw [addf_apply, addf_apply, broadcastTo_1b_ab_apply, matmul0_read, matmul0_read]
  rfl

theorem pay6_read (x0 x1 : Vec Ideal S4000x128 .f32) (w0 w1 : Vec Ideal S128x128 .f32) (b : Vec Ideal S1x128 .f32) (prev : Vec Ideal S8x128 .f32) (r8 : Fin 8) (q : Fin 128) :
    k0_pay6 (F := Ideal) x0 x1 w0 w1 b prev (ix2 r8 q)
      = EdgeNet.cur2 prev r8 q + ∑ r : Fin 4000, k0_pay4 (F := Ideal) x0 x1 w0 w1 b (ix2 r q) := by
  unfold k0_pay6
  simp only [shapeCast_self]
  rw [addf_apply, broadcastTo_1b_ab_apply, shapeCast_a_1a_apply, laneSum0_read]
  rfl

theorem pay15_read (x0 x1 : Vec Ideal S4000x128 .f32) (w0 w1 : Vec Ideal S128x128 .f32) (b : Vec Ideal S1x128 .f32) (prev : Vec Ideal S8x128 .f32) (r8 : Fin 8) (q : Fin 128) :
    k0_pay1 (F := Ideal) (k0_pay5 (F := Ideal) x0 x1 w0 w1 b) prev (ix2 r8 q)
      = EdgeNet.cur2 prev r8 q + ∑ r : Fin 4000, k0_pay4 (F := Ideal) x0 x1 w0 w1 b (ix2 r q) * k0_pay4 (F := Ideal) x0 x1 w0 w1 b (ix2 r q) := by
  unfold k0_pay1 k0_pay5
  simp only [shapeCast_self]
  rw [addf_apply, broadcastTo_1b_ab_apply, shapeCast_a_1a_apply, laneSum0_read]
  rfl

theorem pay2_read (r8 : Fin 8) (q : Fin 128) : k0_pay2 (F := Ideal) (ix2 r8 q) = (0 : EReal) := by
  unfold k0_pay2
  rw [broadcast_apply]
  exact Ideal.ofBits_zero_f32
theorem pay3_read (r8 : Fin 8) (q : Fin 128) : k0_pay3 (F := Ideal) (ix2 r8 q) = (0 : EReal) := by
  unfold k0_pay3
  rw [broadcast_apply]
  exact Ideal.ofBits_zero_f32

variable (V : (c : Dev nD) → (b : Ref sig .tc) → Buf (Elt Ideal) ((c : Thread nD τ).loc b))

theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_5.index t (0 : Fin 2) = t.val ∧ win0_5.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

theorem iblk0_w0 (c : Dev nD) (t : Fin cfg0.N) (r : Fin 4000) (q : Fin 128) :
    (iblk0 V c 0 t : Vec Ideal S4000x128 .f32) (ix2 r q)
      = EdgeNet.cur2 (V c main_v6 : Vec Ideal S200000x128 .f32) ⟨4000 * t.val + r.val, by have := t.isLt; have hN : cfg0.N = 50 := N_0; have := r.isLt; omega⟩ q := by
  have hi : win0_0.index t (0 : Fin 2) = t.val ∧ win0_0.index t (1 : Fin 2) = 0 := (idx_facts0 t).1
  unfold iblk0
  rw [View.read_apply]
  show V c main_v6 _ = V c main_v6 _
  congr 1
  funext a
  apply Fin.ext
  match a with
  | ⟨0, _⟩ => show win0_0.index t (0 : Fin 2) * 4000 + 1 * r.val = 4000 * t.val + r.val; rw [hi.1]; omega
  | ⟨1, _⟩ => show win0_0.index t (1 : Fin 2) * 128 + 1 * q.val = q.val; rw [hi.2]; omega

theorem iblk0_w1 (c : Dev nD) (t : Fin cfg0.N) (r : Fin 4000) (q : Fin 128) :
    (iblk0 V c 1 t : Vec Ideal S4000x128 .f32) (ix2 r q)
      = EdgeNet.cur2 (V c main_v7 : Vec Ideal S200000x128 .f32) ⟨4000 * t.val + r.val, by have := t.isLt; have hN : cfg0.N = 50 := N_0; have := r.isLt; omega⟩ q := by
  have hi : win0_1.index t (0 : Fin 2) = t.val ∧ win0_1.index t (1 : Fin 2) = 0 := (idx_facts0 t).2.1
  unfold iblk0
  rw [View.read_apply]
  show V c main_v7 _ = V c main_v7 _
  congr 1
  funext a
  apply Fin.ext
  match a with
  | ⟨0, _⟩ => show win0_1.index t (0 : Fin 2) * 4000 + 1 * r.val = 4000 * t.val + r.val; rw [hi.1]; omega
  | ⟨1, _⟩ => show win0_1.index t (1 : Fin 2) * 128 + 1 * q.val = q.val; rw [hi.2]; omega

theorem iblk0_w2 (c : Dev nD) (t : Fin cfg0.N) (a : Fin 128) (b : Fin 128) :
    (iblk0 V c 2 t : Vec Ideal S128x128 .f32) (ix2 a b) = EdgeNet.cur2 (V c main_v15 : Vec Ideal S128x128 .f32) a b := by
  have hi : win0_2.index t (0 : Fin 2) = 0 ∧ win0_2.index t (1 : Fin 2) = 0 := (idx_facts0 t).2.2.2.1
  unfold iblk0
  rw [View.read_apply]
  show V c main_v15 _ = V c main_v15 _
  congr 1
  funext ax
  apply Fin.ext
  match ax with
  | ⟨0, _⟩ => show win0_2.index t (0 : Fin 2) * 128 + 1 * a.val = a.val; rw [hi.1]; omega
  | ⟨1, _⟩ => show win0_2.index t (1 : Fin 2) * 128 + 1 * b.val = b.val; rw [hi.2]; omega

theorem iblk0_w3 (c : Dev nD) (t : Fin cfg0.N) (a : Fin 128) (b : Fin 128) :
    (iblk0 V c 3 t : Vec Ideal S128x128 .f32) (ix2 a b) = EdgeNet.cur2 (V c main_v21 : Vec Ideal S128x128 .f32) a b := by
  have hi : win0_3.index t (0 : Fin 2) = 0 ∧ win0_3.index t (1 : Fin 2) = 0 := (idx_facts0 t).2.2.2.2.1
  unfold iblk0
  rw [View.read_apply]
  show V c main_v21 _ = V c main_v21 _
  congr 1
  funext ax
  apply Fin.ext
  match ax with
  | ⟨0, _⟩ => show win0_3.index t (0 : Fin 2) * 128 + 1 * a.val = a.val; rw [hi.1]; omega
  | ⟨1, _⟩ => show win0_3.index t (1 : Fin 2) * 128 + 1 * b.val = b.val; rw [hi.2]; omega

theorem iblk0_w4 (c : Dev nD) (t : Fin cfg0.N) (a : Fin 1) (b : Fin 128) :
    (iblk0 V c 4 t : Vec Ideal S1x128 .f32) (ix2 a b) = EdgeNet.cur2 (V c main_v31 : Vec Ideal S1x128 .f32) a b := by
  have hi : win0_4.index t (0 : Fin 2) = 0 ∧ win0_4.index t (1 : Fin 2) = 0 := (idx_facts0 t).2.2.2.2.2
  unfold iblk0
  rw [View.read_apply]
  show V c main_v31 _ = V c main_v31 _
  congr 1
  funext ax
  apply Fin.ext
  match ax with
  | ⟨0, _⟩ => show win0_4.index t (0 : Fin 2) * 1 + 1 * a.val = a.val; rw [hi.1]; omega
  | ⟨1, _⟩ => show win0_4.index t (1 : Fin 2) * 128 + 1 * b.val = b.val; rw [hi.2]; omega

end Cert.KernelIdeal.Fr.R0

end
-- ==== Proof.KI.R0.Value.lean ====
import proofs.«416909_j55972013802026_3_alg».proof.Proof.KI.R0.Frame
import proofs.«416909_j55972013802026_3_alg».proof.Proof.KI.R0.Pay
import proofs.«416909_j55972013802026_3_alg».proof.Proof.Spec
import Idealize.ShloMosaic.Lib.Pipeline.Value
import Idealize.ShloMosaic.Lib.ValueIdx
import Idealize.ShloMosaic.PureOps.Ideal.Laws

/-! First call: the activation array, tile by tile. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL.Sem
open Idealize.ShloMosaic.Pipeline (Dat Cfg Window BodyObligation cellOf)
open Idealize.ShloMosaic.ValueIdx
open scoped BigOperators

namespace R0V

theorem hz : (![0, 0] : Fin 2 → Nat) = fun _ => 0 := funext fun a => by fin_cases a <;> rfl

section Pieces

variable {F : FTy → Type} [FloatOps F]
variable (c : Dev nD) (i : grid0.Coords)
  (arg2 : Memref sig .tc .vmem S4000x128 .f32) (harg2 : arg2.IsWhole)
  (arg3 : Memref sig .tc .vmem S4000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S1x128 .f32) (harg6 : arg6.IsWhole)
  (arg7 : Memref sig .tc .vmem S4000x128 .f32) (harg7 : arg7.IsWhole)
  (arg8 : Memref sig .tc .vmem S8x128 .f32) (harg8 : arg8.IsWhole)
  (arg9 : Memref sig .tc .vmem S8x128 .f32) (harg9 : arg9.IsWhole)
  (x0 x1 : Vec F S4000x128 .f32) (x2 x3 : Vec F S128x128 .f32) (x4 : Vec F S1x128 .f32)

local notation "ℒz" => leftZero c i arg2 harg2 arg3 harg3 arg4 harg4 arg5 harg5 arg6 harg6 arg7 harg7 arg8 harg8 arg9 harg9 x0 x1 x2 x3 x4
local notation "ℒa" => leftAcc c i arg2 harg2 arg3 harg3 arg4 harg4 arg5 harg5 arg6 harg6 arg7 harg7 arg8 harg8 arg9 harg9 x0 x1 x2 x3 x4

theorem zero_h (hc : zeroCond i) : (ℒz hc).1 = k0_pay4 x0 x1 x2 x3 x4 := by
  unfold leftZero
  dsimp only
  rw [View.read_writes_eq_canon _ _ _ (coverZero_h c i arg2 harg2 arg3 harg3 arg4 harg4 arg5 harg5 arg6 harg6 arg7 harg7 arg8 harg8 arg9 harg9 x0 x1 x2 x3 x4 hc)]
  unfold runZero
  dsimp only
  sl_unfold_words
  rw [View.canon_unit_zero hz]
  simp only [View.readAt_eq_ld, harg2.read_unread, harg3.read_unread, harg4.read_unread, harg5.read_unread, harg6.read_unread,
    View.ld_unit_zero (S := S4000x128) hz, View.ld_unit_zero (S := S128x128) hz, View.ld_unit_zero (S := S1x128) hz]

theorem zero_s (hc : zeroCond i) : (ℒz hc).2.1 = k0_pay6 x0 x1 x2 x3 x4 (k0_pay2 (F := F)) := by
  unfold leftZero
  dsimp only
  rw [View.read_writes_eq_canon _ _ _ (coverZero_s c i arg2 harg2 arg3 harg3 arg4 harg4 arg5 harg5 arg6 harg6 arg7 harg7 arg8 harg8 arg9 harg9 x0 x1 x2 x3 x4 hc)]
  unfold runZero
  dsimp only
  sl_unfold_words
  rw [View.canon_cons_unit_zero (S := S8x128) hz]
  simp only [View.readAt_eq_ld, harg2.read_unread, harg3.read_unread, harg4.read_unread, harg5.read_unread, harg6.read_unread,
    View.ld_unit_zero (S := S4000x128) hz, View.ld_unit_zero (S := S128x128) hz, View.ld_unit_zero (S := S1x128) hz,
    View.readCov_unit_zero (S := S8x128) _ hz]

theorem zero_q (hc : zeroCond i) : (ℒz hc).2.2 = k0_pay1 (k0_pay5 x0 x1 x2 x3 x4) (k0_pay3 (F := F)) := by
  unfold leftZero
  dsimp only
  rw [View.read_writes_eq_canon _ _ _ (coverZero_q c i arg2 harg2 arg3 harg3 arg4 harg4 arg5 harg5 arg6 harg6 arg7 harg7 arg8 harg8 arg9 harg9 x0 x1 x2 x3 x4 hc)]
  unfold runZero
  dsimp only
  sl_unfold_words
  rw [View.canon_cons_unit_zero (S := S8x128) hz]
  simp only [View.readAt_eq_ld, harg2.read_unread, harg3.read_unread, harg4.read_unread, harg5.read_unread, harg6.read_unread,
    View.ld_unit_zero (S := S4000x128) hz, View.ld_unit_zero (S := S128x128) hz, View.ld_unit_zero (S := S1x128) hz,
    View.readCov_unit_zero (S := S8x128) _ hz]

theorem acc_h (hc : ¬zeroCond i) (xs xq : Vec F S8x128 .f32) : (ℒa hc xs xq).1 = k0_pay4 x0 x1 x2 x3 x4 := by
  unfold leftAcc
  dsimp only
  rw [View.read_writes_eq_canon _ _ _ (coverAcc_h c i arg2 harg2 arg3 harg3 arg4 harg4 arg5 harg5 arg6 harg6 arg7 harg7 arg8 harg8 arg9 harg9 x0 x1 x2 x3 x4 hc xs xq)]
  unfold runAcc
  dsimp only
  sl_unfold_words
  rw [View.canon_unit_zero hz]
  simp only [View.readAt_eq_ld, harg2.read_unread, harg3.read_unread, harg4.read_unread, harg5.read_unread, harg6.read_unread,
    View.ld_unit_zero (S := S4000x128) hz, View.ld_unit_zero (S := S128x128) hz, View.ld_unit_zero (S := S1x128) hz]

theorem acc_s (hc : ¬zeroCond i) (xs xq : Vec F S8x128 .f32) : (ℒa hc xs xq).2.1 = k0_pay6 x0 x1 x2 x3 x4 xs := by
  unfold leftAcc
  dsimp only
  rw [View.read_writes_eq_canon _ _ _ (coverAcc_s c i arg2 harg2 arg3 harg3 arg4 harg4 arg5 harg5 arg6 harg6 arg7 harg7 arg8 harg8 arg9 harg9 x0 x1 x2 x3 x4 hc xs xq)]
  unfold runAcc
  dsimp only
  sl_unfold_words
  rw [View.canon_unit_zero hz]
  simp only [View.readAt_eq_ld, harg2.read_unread, harg3.read_unread, harg4.read_unread, harg5.read_unread, harg6.read_unread, harg8.read_unread, harg9.read_unread,
    View.ld_unit_zero (S := S4000x128) hz, View.ld_unit_zero (S := S128x128) hz, View.ld_unit_zero (S := S1x128) hz, View.ld_unit_zero (S := S8x128) hz]

theorem acc_q (hc : ¬zeroCond i) (xs xq : Vec F S8x128 .f32) : (ℒa hc xs xq).2.2 = k0_pay1 (k0_pay5 x0 x1 x2 x3 x4) xq := by
  unfold leftAcc
  dsimp only
  rw [View.read_writes_eq_canon _ _ _ (coverAcc_q c i arg2 harg2 arg3 harg3 arg4 harg4 arg5 harg5 arg6 harg6 arg7 harg7 arg8 harg8 arg9 harg9 x0 x1 x2 x3 x4 hc xs xq)]
  unfold runAcc
  dsimp only
  sl_unfold_words
  rw [View.canon_unit_zero hz]
  simp only [View.readAt_eq_ld, harg2.read_unread, harg3.read_unread, harg4.read_unread, harg5.read_unread, harg6.read_unread, harg8.read_unread, harg9.read_unread,
    View.ld_unit_zero (S := S4000x128) hz, View.ld_unit_zero (S := S128x128) hz, View.ld_unit_zero (S := S1x128) hz, View.ld_unit_zero (S := S8x128) hz]

end Pieces

theorem left_h {F : FTy → Type} [FloatOps F] (V : (c : Dev nD) → (b : Ref sig .tc) → Buf (Elt F) ((c : Thread nD τ).loc b))
    (c : Dev nD) (t : Fin cfg0.N) :
    (accAt0 V c t.val t.isLt).1 = k0_pay4 (iblk0 V c 0 t) (iblk0 V c 1 t) (iblk0 V c 2 t) (iblk0 V c 3 t) (iblk0 V c 4 t) := by
  by_cases h0 : t.val % 25 = 0
  · rw [accAt0_zero V c t h0]
    unfold zeroAt
    exact zero_h c (grid0.coords t) (mr0_0 t) (hmr0_0 t) (mr0_1 t) (hmr0_1 t) (mr0_2 t) (hmr0_2 t) (mr0_3 t) (hmr0_3 t) (mr0_4 t) (hmr0_4 t)
      (mr0_5 t) (hmr0_5 t) (mr0_6 t) (hmr0_6 t) (mr0_7 t) (hmr0_7 t)
      (iblk0 V c 0 t) (iblk0 V c 1 t) (iblk0 V c 2 t) (iblk0 V c 3 t) (iblk0 V c 4 t) ((zeroCond_iff t).mpr h0)
  · rw [accAt0_step V c t h0]
    unfold stepAt
    exact acc_h c (grid0.coords t) (mr0_0 t) (hmr0_0 t) (mr0_1 t) (hmr0_1 t) (mr0_2 t) (hmr0_2 t) (mr0_3 t) (hmr0_3 t) (mr0_4 t) (hmr0_4 t)
      (mr0_5 t) (hmr0_5 t) (mr0_6 t) (hmr0_6 t) (mr0_7 t) (hmr0_7 t)
      (iblk0 V c 0 t) (iblk0 V c 1 t) (iblk0 V c 2 t) (iblk0 V c 3 t) (iblk0 V c 4 t) (fun hh => h0 ((zeroCond_iff t).mp hh))
      (accAt0 V c (t.val - 1) (Nat.lt_of_le_of_lt (Nat.sub_le _ _) t.isLt)).2.1
      (accAt0 V c (t.val - 1) (Nat.lt_of_le_of_lt (Nat.sub_le _ _) t.isLt)).2.2

variable (V : (c : Dev nD) → (b : Ref sig .tc) → Buf (Elt Ideal) ((c : Thread nD τ).loc b))

def h1Fn (c : Dev nD) (p : Fin 200000) (q : Fin 128) : EReal :=
  (∑ k : Fin 128, EdgeNet.cur2 (V c main_v6 : Vec Ideal S200000x128 .f32) p k * EdgeNet.cur2 (V c main_v15 : Vec Ideal S128x128 .f32) k q)
    + (∑ k : Fin 128, EdgeNet.cur2 (V c main_v7 : Vec Ideal S200000x128 .f32) p k * EdgeNet.cur2 (V c main_v21 : Vec Ideal S128x128 .f32) k q)
    + EdgeNet.cur2 (V c main_v31 : Vec Ideal S1x128 .f32) 0 q

def h1Arr (c : Dev nD) : Vec Ideal S200000x128 .f32 := fun idx => h1Fn V c (idx 0) (idx 1)

theorem blk_h1 (c : Dev nD) (t : Fin cfg0.N) (r : Fin 4000) (q : Fin 128) :
    k0_pay4 (F := Ideal) (iblk0 V c 0 t) (iblk0 V c 1 t) (iblk0 V c 2 t) (iblk0 V c 3 t) (iblk0 V c 4 t) (ix2 r q)
      = h1Fn V c ⟨4000 * t.val + r.val, by have := t.isLt; have hN : cfg0.N = 50 := N_0; have := r.isLt; omega⟩ q := by
  refine (R0.pay4_read (iblk0 V c 0 t) (iblk0 V c 1 t) (iblk0 V c 2 t) (iblk0 V c 3 t) (iblk0 V c 4 t) r q).trans ?_
  unfold h1Fn
  refine congrArg₂ (· + ·) (congrArg₂ (· + ·) (Finset.sum_congr rfl fun k _ => ?_) (Finset.sum_congr rfl fun k _ => ?_)) ?_
  · exact congrArg₂ (· * ·) (R0.iblk0_w0 V c t r k) (R0.iblk0_w2 V c t k q)
  · exact congrArg₂ (· * ·) (R0.iblk0_w1 V c t r k) (R0.iblk0_w3 V c t k q)
  · exact R0.iblk0_w4 V c t 0 q

theorem h1_flushed (c : Dev nD) (t : Fin cfg0.N) :
    (dat0 V c).flushed 5 t = ((cfg0.win 5).blk t).view.read (Elt Ideal) (h1Arr V c) := by
  show (cfg0.win 5).cut (grid0.coords t) ((dat0 V c).after 5 t) = _
  rw [after0_5, left_h V c t]
  have hi : win0_5.index t (0 : Fin 2) = t.val ∧ win0_5.index t (1 : Fin 2) = 0 := (R0.idx_facts0 t).2.2.1
  funext j
  obtain ⟨r, q, rfl⟩ : ∃ (r : Fin 4000) (q : Fin 128), j = ix2 r q := ⟨j 0, j 1, eq_ix2 j⟩
  show k0_pay4 (F := Ideal) (iblk0 V c 0 t) (iblk0 V c 1 t) (iblk0 V c 2 t) (iblk0 V c 3 t) (iblk0 V c 4 t) (ix2 r q)
    = h1Arr V c (((cfg0.win 5).blk t).view.emb (ix2 r q))
  refine (blk_h1 V c t r q).trans ?_
  unfold h1Arr
  show h1Fn V c _ _ = h1Fn V c _ _
  congr 1
  · apply Fin.ext
    show 4000 * t.val + r.val = win0_5.index t (0 : Fin 2) * 4000 + 1 * r.val
    rw [hi.1]; omega
  · apply Fin.ext
    show q.val = win0_5.index t (1 : Fin 2) * 128 + 1 * q.val
    rw [hi.2]; omega

theorem h1_mem_blk (t : Fin cfg0.N) (i : S200000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v52_0).slice (win0_5.rect t)).set ↔ _
  rw [View.set_slice_whole, Rect.mem_set_unit]
  exact Iff.rfl

theorem h1_cover (i : S200000x128.Idx) : ∃ t : Fin cfg0.N, (cfg0.win 5).flush t = true ∧ i ∈ ((cfg0.win 5).blk t).view.set := by
  have hi0 : (i 0).val < 200000 := (i 0).isLt
  have hi1 : (i 1).val < 128 := (i 1).isLt
  have hN : cfg0.N = 50 := N_0
  obtain ⟨t, ht⟩ : ∃ t : Fin cfg0.N, t.val = (i 0).val / 4000 := ⟨⟨(i 0).val / 4000, by omega⟩, rfl⟩
  have hi : win0_5.index t (0 : Fin 2) = t.val ∧ win0_5.index t (1 : Fin 2) = 0 := (R0.idx_facts0 t).2.2.1
  refine ⟨t, flush0_5 t, ?_⟩
  rw [h1_mem_blk]
  intro a
  match a with
  | ⟨0, _⟩ =>
    show win0_5.index t (0 : Fin 2) * 4000 ≤ (i 0).val ∧ (i 0).val < win0_5.index t (0 : Fin 2) * 4000 + 4000
    rw [hi.1, ht]; omega
  | ⟨1, _⟩ =>
    show win0_5.index t (1 : Fin 2) * 128 ≤ (i 1).val ∧ (i 1).val < win0_5.index t (1 : Fin 2) * 128 + 128
    rw [hi.2]; omega

theorem h1_final (c : Dev nD) : (dat0 V c).arrAt 5 cfg0.N = h1Arr V c :=
  (dat0 V c).arrAt_eq_of_cover 5 (h1Arr V c) (fun t _ => h1_flushed V c t) (fun i => h1_cover i)

end R0V

variable (V : (c : Dev nD) → (b : Ref sig .tc) → Buf (Elt Ideal) ((c : Thread nD τ).loc b))

theorem h1_read (c : Dev nD) (p : Fin 200000) (q : Fin 128) :
    EdgeNet.cur2 ((dat0 (F := Ideal) V c).arrAt 5 cfg0.N : Vec Ideal S200000x128 .f32) p q
      = (∑ k : Fin 128, EdgeNet.cur2 (V c main_v6 : Vec Ideal S200000x128 .f32) p k * EdgeNet.cur2 (V c main_v15 : Vec Ideal S128x128 .f32) k q)
        + (∑ k : Fin 128, EdgeNet.cur2 (V c main_v7 : Vec Ideal S200000x128 .f32) p k * EdgeNet.cur2 (V c main_v21 : Vec Ideal S128x128 .f32) k q)
        + EdgeNet.cur2 (V c main_v31 : Vec Ideal S1x128 .f32) 0 q :=
  congrFun (R0V.h1_final V c) (ix2 p q)

theorem h1_block (c : Dev nD) (t : Fin cfg0.N) (r : Fin 4000) (q : Fin 128) :
    EdgeNet.cur2 ((dat0 (F := Ideal) V c).arrAt 5 cfg0.N : Vec Ideal S200000x128 .f32)
        ⟨4000 * t.val + r.val, by have := t.isLt; have hN : cfg0.N = 50 := N_0; have := r.isLt; omega⟩ q
      = k0_pay4 (F := Ideal) (iblk0 V c 0 t) (iblk0 V c 1 t) (iblk0 V c 2 t) (iblk0 V c 3 t) (iblk0 V c 4 t) (ix2 r q) :=
  (h1_read V c _ q).trans (R0V.blk_h1 V c t r q).symm

end Cert.KernelIdeal.Fr

end
-- ==== Proof.KI.R0.ValueAcc.lean ====
import proofs.«416909_j55972013802026_3_alg».proof.Proof.KI.R0.Value
import proofs.«416909_j55972013802026_3_alg».proof.Proof.Spec
import Idealize.ShloMosaic.Lib.Pipeline.Value
import Idealize.ShloMosaic.Lib.ValueIdx
import Idealize.ShloMosaic.Lib.ValueLayout
import Idealize.ShloMosaic.PureOps.Ideal.Laws

/-! First call: the accumulated column sums and sums of squares of each half. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL.Sem
open Idealize.ShloMosaic.Pipeline (Dat Cfg Window BodyObligation cellOf)
open Idealize.ShloMosaic.ValueIdx
open scoped BigOperators

namespace R0A

section AnyValues

variable {F : FTy → Type} [FloatOps F]
variable (V : (c : Dev nD) → (b : Ref sig .tc) → Buf (Elt F) ((c : Thread nD τ).loc b))

theorem zeroAt_s (c : Dev nD) (t : Fin cfg0.N) (h : t.val % 25 = 0) :
    (zeroAt V c t h).2.1
      = k0_pay6 (iblk0 V c 0 t : Vec F S4000x128 .f32) (iblk0 V c 1 t : Vec F S4000x128 .f32) (iblk0 V c 2 t : Vec F S128x128 .f32)
          (iblk0 V c 3 t : Vec F S128x128 .f32) (iblk0 V c 4 t : Vec F S1x128 .f32) (k0_pay2 (F := F)) := by
  unfold zeroAt
  exact R0V.zero_s c (grid0.coords t) (mr0_0 t) (hmr0_0 t) (mr0_1 t) (hmr0_1 t) (mr0_2 t) (hmr0_2 t) (mr0_3 t) (hmr0_3 t) (mr0_4 t) (hmr0_4 t)
    (mr0_5 t) (hmr0_5 t) (mr0_6 t) (hmr0_6 t) (mr0_7 t) (hmr0_7 t)
    (iblk0 V c 0 t) (iblk0 V c 1 t) (iblk0 V c 2 t) (iblk0 V c 3 t) (iblk0 V c 4 t) ((zeroCond_iff t).mpr h)

theorem zeroAt_q (c : Dev nD) (t : Fin cfg0.N) (h : t.val % 25 = 0) :
    (zeroAt V c t h).2.2
      = k0_pay1 (k0_pay5 (iblk0 V c 0 t : Vec F S4000x128 .f32) (iblk0 V c 1 t : Vec F S4000x128 .f32) (iblk0 V c 2 t : Vec F S128x128 .f32)
          (iblk0 V c 3 t : Vec F S128x128 .f32) (iblk0 V c 4 t : Vec F S1x128 .f32)) (k0_pay3 (F := F)) := by
  unfold zeroAt
  exact R0V.zero_q c (grid0.coords t) (mr0_0 t) (hmr0_0 t) (mr0_1 t) (hmr0_1 t) (mr0_2 t) (hmr0_2 t) (mr0_3 t) (hmr0_3 t) (mr0_4 t) (hmr0_4 t)
    (mr0_5 t) (hmr0_5 t) (mr0_6 t) (hmr0_6 t) (mr0_7 t) (hmr0_7 t)
    (iblk0 V c 0 t) (iblk0 V c 1 t) (iblk0 V c 2 t) (iblk0 V c 3 t) (iblk0 V c 4 t) ((zeroCond_iff t).mpr h)

theorem stepAt_s (c : Dev nD) (t : Fin cfg0.N) (h : ¬t.val % 25 = 0) (xs xq : Vec F S8x128 .f32) :
    (stepAt V c t h xs xq).2.1
      = k0_pay6 (iblk0 V c 0 t : Vec F S4000x128 .f32) (iblk0 V c 1 t : Vec F S4000x128 .f32) (iblk0 V c 2 t : Vec F S128x128 .f32)
          (iblk0 V c 3 t : Vec F S128x128 .f32) (iblk0 V c 4 t : Vec F S1x128 .f32) xs := by
  unfold stepAt
  exact R0V.acc_s c (grid0.coords t) (mr0_0 t) (hmr0_0 t) (mr0_1 t) (hmr0_1 t) (mr0_2 t) (hmr0_2 t) (mr0_3 t) (hmr0_3 t) (mr0_4 t) (hmr0_4 t)
    (mr0_5 t) (hmr0_5 t) (mr0_6 t) (hmr0_6 t) (mr0_7 t) (hmr0_7 t)
    (iblk0 V c 0 t) (iblk0 V c 1 t) (iblk0 V c 2 t) (iblk0 V c 3 t) (iblk0 V c 4 t) (fun hh => h ((zeroCond_iff t).mp hh)) xs xq

theorem stepAt_q (c : Dev nD) (t : Fin cfg0.N) (h : ¬t.val % 25 = 0) (xs xq : Vec F S8x128 .f32) :
    (stepAt V c t h xs xq).2.2
      = k0_pay1 (k0_pay5 (iblk0 V c 0 t : Vec F S4000x128 .f32) (iblk0 V c 1 t : Vec F S4000x128 .f32) (iblk0 V c 2 t : Vec F S128x128 .f32)
          (iblk0 V c 3 t : Vec F S128x128 .f32) (iblk0 V c 4 t : Vec F S1x128 .f32)) xq := by
  unfold stepAt
  exact R0V.acc_q c (grid0.coords t) (mr0_0 t) (hmr0_0 t) (mr0_1 t) (hmr0_1 t) (mr0_2 t) (hmr0_2 t) (mr0_3 t) (hmr0_3 t) (mr0_4 t) (hmr0_4 t)
    (mr0_5 t) (hmr0_5 t) (mr0_6 t) (hmr0_6 t) (mr0_7 t) (hmr0_7 t)
    (iblk0 V c 0 t) (iblk0 V c 1 t) (iblk0 V c 2 t) (iblk0 V c 3 t) (iblk0 V c 4 t) (fun hh => h ((zeroCond_iff t).mp hh)) xs xq

end AnyValues

section AtIdeal

variable (V : (c : Dev nD) → (b : Ref sig .tc) → Buf (Elt Ideal) ((c : Thread nD τ).loc b))

abbrev hblk (c : Dev nD) (t : Fin cfg0.N) : Vec Ideal S4000x128 .f32 :=
  k0_pay4 (F := Ideal) (iblk0 V c 0 t : Vec Ideal S4000x128 .f32) (iblk0 V c 1 t : Vec Ideal S4000x128 .f32)
    (iblk0 V c 2 t : Vec Ideal S128x128 .f32) (iblk0 V c 3 t : Vec Ideal S128x128 .f32) (iblk0 V c 4 t : Vec Ideal S1x128 .f32)

def addS (c : Dev nD) (n : ℕ) (q : Fin 128) : EReal :=
  if h : n < cfg0.N then ∑ r : Fin 4000, hblk V c ⟨n, h⟩ (ix2 r q) else 0

def addQ (c : Dev nD) (n : ℕ) (q : Fin 128) : EReal :=
  if h : n < cfg0.N then ∑ r : Fin 4000, hblk V c ⟨n, h⟩ (ix2 r q) * hblk V c ⟨n, h⟩ (ix2 r q) else 0

theorem runS (c : Dev nD) (j : ℕ) : ∀ (k : ℕ) (hk : k < 25) (h : 25 * j + k < cfg0.N) (r8 : Fin 8) (q : Fin 128),
    ((accAt0 V c (25 * j + k) h).2.1 : Vec Ideal S8x128 .f32) (ix2 r8 q) = ∑ s ∈ Finset.range (k + 1), addS V c (25 * j + s) q
  | 0, _, h, r8, q => by
    have h0 : (⟨25 * j + 0, h⟩ : Fin cfg0.N).val % 25 = 0 := by show (25 * j + 0) % 25 = 0; omega
    have e := accAt0_zero V c ⟨25 * j + 0, h⟩ h0
    have e' : (accAt0 V c (25 * j + 0) h).2.1 = (zeroAt V c ⟨25 * j + 0, h⟩ h0).2.1 := congrArg (fun x => x.2.1) e
    rw [e', zeroAt_s V c ⟨25 * j + 0, h⟩ h0, Finset.sum_range_one]
    refine (R0.pay6_read _ _ _ _ _ _ r8 q).trans ?_
    rw [show EdgeNet.cur2 (k0_pay2 (F := Ideal)) r8 q = (0 : EReal) from R0.pay2_read r8 q, zero_add]
    unfold addS
    rw [dif_pos h]
  | k + 1, hk, h, r8, q => by
    have hne : ¬(⟨25 * j + (k + 1), h⟩ : Fin cfg0.N).val % 25 = 0 := by show ¬(25 * j + (k + 1)) % 25 = 0; omega
    have hp : 25 * j + k < cfg0.N := by omega
    have e : accAt0 V c (25 * j + (k + 1)) h
        = stepAt V c ⟨25 * j + (k + 1), h⟩ hne (accAt0 V c (25 * j + k) hp).2.1 (accAt0 V c (25 * j + k) hp).2.2 :=
      accAt0_step V c ⟨25 * j + (k + 1), h⟩ hne
    have e' : (accAt0 V c (25 * j + (k + 1)) h).2.1
        = (stepAt V c ⟨25 * j + (k + 1), h⟩ hne (accAt0 V c (25 * j + k) hp).2.1 (accAt0 V c (25 * j + k) hp).2.2).2.1 :=
      congrArg (fun x => x.2.1) e
    rw [e', stepAt_s V c ⟨25 * j + (k + 1), h⟩ hne, Finset.sum_range_succ]
    refine (R0.pay6_read _ _ _ _ _ _ r8 q).trans ?_
    rw [show EdgeNet.cur2 ((accAt0 V c (25 * j + k) hp).2.1 : Vec Ideal S8x128 .f32) r8 q
        = ∑ s ∈ Finset.range (k + 1), addS V c (25 * j + s) q from runS c j k (by omega) hp r8 q]
    unfold addS
    rw [dif_pos h]

theorem runQ (c : Dev nD) (j : ℕ) : ∀ (k : ℕ) (hk : k < 25) (h : 25 * j + k < cfg0.N) (r8 : Fin 8) (q : Fin 128),
    ((accAt0 V c (25 * j + k) h).2.2 : Vec Ideal S8x128 .f32) (ix2 r8 q) = ∑ s ∈ Finset.range (k + 1), addQ V c (25 * j + s) q
  | 0, _, h, r8, q => by
    have h0 : (⟨25 * j + 0, h⟩ : Fin cfg0.N).val % 25 = 0 := by show (25 * j + 0) % 25 = 0; omega
    have e := accAt0_zero V c ⟨25 * j + 0, h⟩ h0
    have e' : (accAt0 V c (25 * j + 0) h).2.2 = (zeroAt V c ⟨25 * j + 0, h⟩ h0).2.2 := congrArg (fun x => x.2.2) e
    rw [e', zeroAt_q V c ⟨25 * j + 0, h⟩ h0, Finset.sum_range_one]
    refine (R0.pay15_read _ _ _ _ _ _ r8 q).trans ?_
    rw [show EdgeNet.cur2 (k0_pay3 (F := Ideal)) r8 q = (0 : EReal) from R0.pay3_read r8 q, zero_add]
    unfold addQ
    rw [dif_pos h]
  | k + 1, hk, h, r8, q => by
    have hne : ¬(⟨25 * j + (k + 1), h⟩ : Fin cfg0.N).val % 25 = 0 := by show ¬(25 * j + (k + 1)) % 25 = 0; omega
    have hp : 25 * j + k < cfg0.N := by omega
    have e : accAt0 V c (25 * j + (k + 1)) h
        = stepAt V c ⟨25 * j + (k + 1), h⟩ hne (accAt0 V c (25 * j + k) hp).2.1 (accAt0 V c (25 * j + k) hp).2.2 :=
      accAt0_step V c ⟨25 * j + (k + 1), h⟩ hne
    have e' : (accAt0 V c (25 * j + (k + 1)) h).2.2
        = (stepAt V c ⟨25 * j + (k + 1), h⟩ hne (accAt0 V c (25 * j + k) hp).2.1 (accAt0 V c (25 * j + k) hp).2.2).2.2 :=
      congrArg (fun x => x.2.2) e
    rw [e', stepAt_q V c ⟨25 * j + (k + 1), h⟩ hne, Finset.sum_range_succ]
    refine (R0.pay15_read _ _ _ _ _ _ r8 q).trans ?_
    rw [show EdgeNet.cur2 ((accAt0 V c (25 * j + k) hp).2.2 : Vec Ideal S8x128 .f32) r8 q
        = ∑ s ∈ Finset.range (k + 1), addQ V c (25 * j + s) q from runQ c j k (by omega) hp r8 q]
    unfold addQ
    rw [dif_pos h]

end AtIdeal

section Final

variable (V : (c : Dev nD) → (b : Ref sig .tc) → Buf (Elt Ideal) ((c : Thread nD τ).loc b))

theorem idx_facts67 : ∀ t : Fin cfg0.N,
    (win0_6.index t (0 : Fin 2) = t.val / 25 ∧ win0_6.index t (1 : Fin 2) = 0)
    ∧ (win0_7.index t (0 : Fin 2) = t.val / 25 ∧ win0_7.index t (1 : Fin 2) = 0) :=
  (by decide +kernel : ∀ t : Fin grid0.N, _)

def sumS (c : Dev nD) (j : ℕ) (q : Fin 128) : EReal := ∑ s ∈ Finset.range 25, addS V c (25 * j + s) q

def sumQ (c : Dev nD) (j : ℕ) (q : Fin 128) : EReal := ∑ s ∈ Finset.range 25, addQ V c (25 * j + s) q

abbrev G6 (c : Dev nD) : Vec Ideal S16x128 .f32 := fun i => sumS V c ((i 0).val / 8) ⟨(i 1).val, idx2_lt1 i⟩
abbrev G7 (c : Dev nD) : Vec Ideal S16x128 .f32 := fun i => sumQ V c ((i 0).val / 8) ⟨(i 1).val, idx2_lt1 i⟩

theorem accAt0_congr (c : Dev nD) (n n' : ℕ) (h : n < cfg0.N) (h' : n' < cfg0.N) (e : n = n') :
    accAt0 V c n h = accAt0 V c n' h' := by subst e; rfl

theorem lastS (c : Dev nD) (t : Fin cfg0.N) (h24 : t.val % 25 = 24) (a : Fin 8) (q : Fin 128) :
    ((accAt0 V c t.val t.isLt).2.1 : Vec Ideal S8x128 .f32) (ix2 a q) = sumS V c (t.val / 25) q := by
  have hN : cfg0.N = 50 := N_0
  have hlt := t.isLt
  have hb : 25 * (t.val / 25) + 24 < cfg0.N := by omega
  rw [accAt0_congr V c t.val (25 * (t.val / 25) + 24) t.isLt hb (by omega)]
  exact runS V c (t.val / 25) 24 (by omega) hb a q

theorem lastQ (c : Dev nD) (t : Fin cfg0.N) (h24 : t.val % 25 = 24) (a : Fin 8) (q : Fin 128) :
    ((accAt0 V c t.val t.isLt).2.2 : Vec Ideal S8x128 .f32) (ix2 a q) = sumQ V c (t.val / 25) q := by
  have hN : cfg0.N = 50 := N_0
  have hlt := t.isLt
  have hb : 25 * (t.val / 25) + 24 < cfg0.N := by omega
  rw [accAt0_congr V c t.val (25 * (t.val / 25) + 24) t.isLt hb (by omega)]
  exact runQ V c (t.val / 25) 24 (by omega) hb a q

theorem flushed6_eq (c : Dev nD) (t : Fin cfg0.N) (hf : (cfg0.win 6).flush t = true) :
    (dat0 V c).flushed 6 t = ((cfg0.win 6).blk t).view.read (Elt Ideal) (G6 V c) := by
  have h24 : t.val % 25 = 24 := (flush0_6 t).mp hf
  have hi := (idx_facts67 t).1
  show (cfg0.win 6).cut (grid0.coords t) ((dat0 V c).after 6 t) = _
  rw [after0_6]
  funext y
  obtain ⟨a, q, rfl⟩ : ∃ (a : Fin 8) (q : Fin 128), y = ix2 a q := ⟨y 0, y 1, eq_ix2 y⟩
  show ((accAt0 V c t.val t.isLt).2.1 : Vec Ideal S8x128 .f32) (ix2 a q) = G6 V c (((cfg0.win 6).blk t).view.emb (ix2 a q))
  refine (lastS V c t h24 a q).trans ?_
  show sumS V c (t.val / 25) q
    = sumS V c ((((cfg0.win 6).blk t).view.emb (ix2 a q) 0).val / 8) ⟨(((cfg0.win 6).blk t).view.emb (ix2 a q) 1).val, _⟩
  congr 1
  · show t.val / 25 = (win0_6.index t (0 : Fin 2) * 8 + 1 * a.val) / 8
    rw [hi.1]; have := a.isLt; omega
  · apply Fin.ext
    show q.val = win0_6.index t (1 : Fin 2) * 128 + 1 * q.val
    rw [hi.2]; omega

theorem flushed7_eq (c : Dev nD) (t : Fin cfg0.N) (hf : (cfg0.win 7).flush t = true) :
    (dat0 V c).flushed 7 t = ((cfg0.win 7).blk t).view.read (Elt Ideal) (G7 V c) := by
  have h24 : t.val % 25 = 24 := (flush0_7 t).mp hf
  have hi := (idx_facts67 t).2
  show (cfg0.win 7).cut (grid0.coords t) ((dat0 V c).after 7 t) = _
  rw [after0_7]
  funext y
  obtain ⟨a, q, rfl⟩ : ∃ (a : Fin 8) (q : Fin 128), y = ix2 a q := ⟨y 0, y 1, eq_ix2 y⟩
  show ((accAt0 V c t.val t.isLt).2.2 : Vec Ideal S8x128 .f32) (ix2 a q) = G7 V c (((cfg0.win 7).blk t).view.emb (ix2 a q))
  refine (lastQ V c t h24 a q).trans ?_
  show sumQ V c (t.val / 25) q
    = sumQ V c ((((cfg0.win 7).blk t).view.emb (ix2 a q) 0).val / 8) ⟨(((cfg0.win 7).blk t).view.emb (ix2 a q) 1).val, _⟩
  congr 1
  · show t.val / 25 = (win0_7.index t (0 : Fin 2) * 8 + 1 * a.val) / 8
    rw [hi.1]; have := a.isLt; omega
  · apply Fin.ext
    show q.val = win0_7.index t (1 : Fin 2) * 128 + 1 * q.val
    rw [hi.2]; omega

theorem mem_blk6 (t : Fin cfg0.N) (i : S16x128.Idx) :
    i ∈ ((cfg0.win 6).blk t).view.set ↔ ∀ a : Fin 2, win0_6.index t a * S8x128.size a ≤ (i a).val ∧ (i a).val < win0_6.index t a * S8x128.size a + S8x128.size a := by
  show i ∈ ((View.whole main_v52_1).slice (win0_6.rect t)).set ↔ _
  rw [View.set_slice_whole, Rect.mem_set_unit]
  exact Iff.rfl

theorem mem_blk7 (t : Fin cfg0.N) (i : S16x128.Idx) :
    i ∈ ((cfg0.win 7).blk t).view.set ↔ ∀ a : Fin 2, win0_7.index t a * S8x128.size a ≤ (i a).val ∧ (i a).val < win0_7.index t a * S8x128.size a + S8x128.size a := by
  show i ∈ ((View.whole main_v52_2).slice (win0_7.rect t)).set ↔ _
  rw [View.set_slice_whole, Rect.mem_set_unit]
  exact Iff.rfl

theorem rowS (c : Dev nD) (j : Fin 2) (q : Fin 128) :
    ((dat0 V c).arrAt 6 cfg0.N : Vec Ideal S16x128 .f32) (ix2 ⟨8 * j.val, by have := j.isLt; omega⟩ q) = sumS V c j.val q := by
  have hN : cfg0.N = 50 := N_0
  have hj := j.isLt
  obtain ⟨t, ht⟩ : ∃ t : Fin cfg0.N, t.val = 25 * j.val + 24 := ⟨⟨25 * j.val + 24, by omega⟩, rfl⟩
  have hf : (cfg0.win 6).flush t = true := (flush0_6 t).mpr (by omega)
  have hi := (idx_facts67 t).1
  have hmem : (ix2 (⟨8 * j.val, by omega⟩ : Fin 16) q : S16x128.Idx) ∈ ((cfg0.win 6).blk t).view.set := by
    rw [mem_blk6]
    intro a
    match a with
    | ⟨0, _⟩ =>
      show win0_6.index t (0 : Fin 2) * 8 ≤ 8 * j.val ∧ 8 * j.val < win0_6.index t (0 : Fin 2) * 8 + 8
      rw [hi.1]; omega
    | ⟨1, _⟩ =>
      show win0_6.index t (1 : Fin 2) * 128 ≤ q.val ∧ q.val < win0_6.index t (1 : Fin 2) * 128 + 128
      rw [hi.2]; have := q.isLt; omega
  refine ((dat0 V c).arrAt_apply_of_mem 6 (G6 V c) (flushed6_eq V c) cfg0.N t _ t.isLt hf hmem).trans ?_
  show sumS V c (8 * j.val / 8) ⟨q.val, _⟩ = sumS V c j.val q
  congr 1
  omega

theorem rowQ (c : Dev nD) (j : Fin 2) (q : Fin 128) :
    ((dat0 V c).arrAt 7 cfg0.N : Vec Ideal S16x128 .f32) (ix2 ⟨8 * j.val, by have := j.isLt; omega⟩ q) = sumQ V c j.val q := by
  have hN : cfg0.N = 50 := N_0
  have hj := j.isLt
  obtain ⟨t, ht⟩ : ∃ t : Fin cfg0.N, t.val = 25 * j.val + 24 := ⟨⟨25 * j.val + 24, by omega⟩, rfl⟩
  have hf : (cfg0.win 7).flush t = true := (flush0_7 t).mpr (by omega)
  have hi := (idx_facts67 t).2
  have hmem : (ix2 (⟨8 * j.val, by omega⟩ : Fin 16) q : S16x128.Idx) ∈ ((cfg0.win 7).blk t).view.set := by
    rw [mem_blk7]
    intro a
    match a with
    | ⟨0, _⟩ =>
      show win0_7.index t (0 : Fin 2) * 8 ≤ 8 * j.val ∧ 8 * j.val < win0_7.index t (0 : Fin 2) * 8 + 8
      rw [hi.1]; omega
    | ⟨1, _⟩ =>
      show win0_7.index t (1 : Fin 2) * 128 ≤ q.val ∧ q.val < win0_7.index t (1 : Fin 2) * 128 + 128
      rw [hi.2]; have := q.isLt; omega
  refine ((dat0 V c).arrAt_apply_of_mem 7 (G7 V c) (flushed7_eq V c) cfg0.N t _ t.isLt hf hmem).trans ?_
  show sumQ V c (8 * j.val / 8) ⟨q.val, _⟩ = sumQ V c j.val q
  congr 1
  omega

theorem sumS_eq (c : Dev nD) (j : Fin 2) (q : Fin 128) :
    sumS V c j.val q
      = ∑ i : Fin 25, ∑ r : Fin 4000, EdgeNet.cur2 ((dat0 (F := Ideal) V c).arrAt 5 cfg0.N : Vec Ideal S200000x128 .f32)
          ⟨4000 * (25 * j.val + i.val) + r.val, by have := j.isLt; have := i.isLt; have := r.isLt; omega⟩ q := by
  have hN : cfg0.N = 50 := N_0
  have hj := j.isLt
  unfold sumS
  rw [Finset.sum_range]
  refine Finset.sum_congr rfl fun i _ => ?_
  have hlt : 25 * j.val + i.val < cfg0.N := by have := i.isLt; omega
  unfold addS
  rw [dif_pos hlt]
  refine Finset.sum_congr rfl fun r _ => ?_
  exact (h1_block V c ⟨25 * j.val + i.val, hlt⟩ r q).symm

theorem sumQ_eq (c : Dev nD) (j : Fin 2) (q : Fin 128) :
    sumQ V c j.val q
      = ∑ i : Fin 25, ∑ r : Fin 4000,
          EdgeNet.cur2 ((dat0 (F := Ideal) V c).arrAt 5 cfg0.N : Vec Ideal S200000x128 .f32)
              ⟨4000 * (25 * j.val + i.val) + r.val, by have := j.isLt; have := i.isLt; have := r.isLt; omega⟩ q
            * EdgeNet.cur2 ((dat0 (F := Ideal) V c).arrAt 5 cfg0.N : Vec Ideal S200000x128 .f32)
              ⟨4000 * (25 * j.val + i.val) + r.val, by have := j.isLt; have := i.isLt; have := r.isLt; omega⟩ q := by
  have hN : cfg0.N = 50 := N_0
  have hj := j.isLt
  unfold sumQ
  rw [Finset.sum_range]
  refine Finset.sum_congr rfl fun i _ => ?_
  have hlt : 25 * j.val + i.val < cfg0.N := by have := i.isLt; omega
  unfold addQ
  rw [dif_pos hlt]
  refine Finset.sum_congr rfl fun r _ => ?_
  have e := (h1_block V c ⟨25 * j.val + i.val, hlt⟩ r q).symm
  exact congrArg₂ (· * ·) e e

end Final

end R0A

open R0A

variable (V : (c : Dev nD) → (b : Ref sig .tc) → Buf (Elt Ideal) ((c : Thread nD τ).loc b))

theorem s1_read (c : Dev nD) (j : Fin 2) (q : Fin 128) :
    EdgeNet.cur2 ((dat0 (F := Ideal) V c).arrAt 6 cfg0.N : Vec Ideal S16x128 .f32) ⟨8 * j.val, by have := j.isLt; omega⟩ q
      = ∑ i : Fin 25, ∑ r : Fin 4000, EdgeNet.cur2 ((dat0 (F := Ideal) V c).arrAt 5 cfg0.N : Vec Ideal S200000x128 .f32)
          ⟨4000 * (25 * j.val + i.val) + r.val, by have := j.isLt; have := i.isLt; have := r.isLt; omega⟩ q :=
  (rowS V c j q).trans (sumS_eq V c j q)

theorem q1_read (c : Dev nD) (j : Fin 2) (q : Fin 128) :
    EdgeNet.cur2 ((dat0 (F := Ideal) V c).arrAt 7 cfg0.N : Vec Ideal S16x128 .f32) ⟨8 * j.val, by have := j.isLt; omega⟩ q
      = ∑ i : Fin 25, ∑ r : Fin 4000,
          EdgeNet.cur2 ((dat0 (F := Ideal) V c).arrAt 5 cfg0.N : Vec Ideal S200000x128 .f32)
              ⟨4000 * (25 * j.val + i.val) + r.val, by have := j.isLt; have := i.isLt; have := r.isLt; omega⟩ q
            * EdgeNet.cur2 ((dat0 (F := Ideal) V c).arrAt 5 cfg0.N : Vec Ideal S200000x128 .f32)
              ⟨4000 * (25 * j.val + i.val) + r.val, by have := j.isLt; have := i.isLt; have := r.isLt; omega⟩ q :=
  (rowQ V c j q).trans (sumQ_eq V c j q)

end Cert.KernelIdeal.Fr

end
-- ==== Proof.KI.R1.Pay.lean ====
import proofs.«416909_j55972013802026_3_alg».proof.Proof.KI.R1.Frame
import proofs.«416909_j55972013802026_3_alg».proof.Proof.Spec
import Idealize.ShloMosaic.Lib.ValueIdx
import Idealize.ShloMosaic.Lib.ValueLayout
import Idealize.ShloMosaic.Lib.Pipeline.Value
import Idealize.ShloMosaic.PureOps.Ideal.Laws

/-! Second call: what one tile stores, read at an index. -/

set_option maxRecDepth 16384

noncomputable section

namespace Cert.KernelIdeal.Fr.R1

open Cert.KernelIdeal Cert.KernelIdeal.Gen
open Idealize.ShloMosaic Idealize.ShloMosaic.TcCoe
open Idealize.ShloMosaic.ValueIdx
open EdgeNet (cur2 c0 cEps)
open scoped BigOperators

theorem mm_lhs_0 (i : S4000x128.Idx) (k : dot_S4000x128_S128x128_S4000x128_1_0_0_1_n_n.contr.Idx) :
    (dot_S4000x128_S128x128_S4000x128_1_0_0_1_n_n.lhsIdx i k 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem mm_lhs_1 (i : S4000x128.Idx) (k : dot_S4000x128_S128x128_S4000x128_1_0_0_1_n_n.contr.Idx) :
    (dot_S4000x128_S128x128_S4000x128_1_0_0_1_n_n.lhsIdx i k 1).val = (k ⟨0, by decide⟩).val :=
  dot_S4000x128_S128x128_S4000x128_1_0_0_1_n_n.lhsIdx_val_of_single rfl i k
theorem mm_rhs_0 (i : S4000x128.Idx) (k : dot_S4000x128_S128x128_S4000x128_1_0_0_1_n_n.contr.Idx) :
    (dot_S4000x128_S128x128_S4000x128_1_0_0_1_n_n.rhsIdx i k 0).val = (k ⟨0, by decide⟩).val :=
  dot_S4000x128_S128x128_S4000x128_1_0_0_1_n_n.rhsIdx_val_of_single rfl i k
theorem mm_rhs_1 (i : S4000x128.Idx) (k : dot_S4000x128_S128x128_S4000x128_1_0_0_1_n_n.contr.Idx) :
    (dot_S4000x128_S128x128_S4000x128_1_0_0_1_n_n.rhsIdx i k 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

theorem mm_read {φ₁ φ₂ : FTy} (A : FVec Ideal S4000x128 φ₁) (B : FVec Ideal S128x128 φ₂) (r : Fin 4000) (q : Fin 128) :
    matmul (F := Ideal) dot_S4000x128_S128x128_S4000x128_1_0_0_1_n_n none A B (constant (F := Ideal) S4000x128 .f32 0x00000000#32) (ix2 r q)
      = ∑ k : Fin 128, A (ix2 r k) * B (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 r q) ((contrEquiv1 dot_S4000x128_S128x128_S4000x128_1_0_0_1_n_n 128 rfl rfl).symm k) = ix2 r k := funext fun a => Fin.ext (by
    match a with
    | ⟨0, _⟩ => exact mm_lhs_0 _ _
    | ⟨1, _⟩ => exact (mm_lhs_1 _ _).trans hk)
  have er : dot_S4000x128_S128x128_S4000x128_1_0_0_1_n_n.rhsIdx (ix2 r q) ((contrEquiv1 dot_S4000x128_S128x128_S4000x128_1_0_0_1_n_n 128 rfl rfl).symm k) = ix2 k q := funext fun a => Fin.ext (by
    match a with
    | ⟨0, _⟩ => exact (mm_rhs_0 _ _).trans hk
    | ⟨1, _⟩ => exact mm_rhs_1 _ _)
  rw [el, er]

theorem colsum_read (v : FVec Ideal S4000x128 .f32) (hφ : FKind.Formats .f32) (hacc : (0x00000000#32 : BitVec 32) = FKind.add.neutral .f32 hφ)
    (q : Fin 128) :
    multiReduction (F := Ideal) .add [0] S128 v 0x00000000#32 reduces_S4000x128_S128 hφ hacc (ix1 q) = ∑ r : Fin 4000, v (ix2 r q) := by
  refine (Ideal.multiReduction_add_single v 0x00000000#32 reduces_S4000x128_S128 hφ hacc (ix1 q)).trans ?_
  refine Finset.sum_congr rfl fun r _ => ?_
  exact congrArg v (funext fun a => Fin.ext (by match a with | ⟨0, _⟩ => rfl | ⟨1, _⟩ => rfl))

theorem colsum_rows_read (v : FVec Ideal S4000x128 .f32) (hφ : FKind.Formats .f32) (hacc : (0x00000000#32 : BitVec 32) = FKind.add.neutral .f32 hφ)
    (r8 : Fin 8) (q : Fin 128) :
    broadcastTo S8x128 (shapeCast S1x128 (shapeCast S1x128 (multiReduction (F := Ideal) .add [0] S128 v 0x00000000#32 reduces_S4000x128_S128 hφ hacc)
        shapeCasts_S128_S1x128) shapeCasts_S1x128_S1x128) broadcasts_S1x128_S8x128 (ix2 r8 q)
      = ∑ r : Fin 4000, v (ix2 r q) := by
  refine (broadcastTo_1b_ab_apply _ _ r8 q).trans ?_
  rw [shapeCast_self]
  refine (shapeCast_a_1a_apply _ _ (0 : Fin 1) q).trans ?_
  exact colsum_read v hφ hacc q

theorem pay2_read (h : Vec Ideal S4000x128 .f32) (prev : Vec Ideal S8x128 .f32) (r8 : Fin 8) (q : Fin 128) :
    k1_pay2 (F := Ideal) h prev (ix2 r8 q) = cur2 prev r8 q + ∑ r : Fin 4000, cur2 h r q * cur2 h r q := by
  unfold k1_pay2
  refine (addf_apply _ _ _).trans ?_
  refine congrArg₂ (· + ·) ?_ ?_
  · rw [shapeCast_self]; rfl
  · exact colsum_rows_read (mulf h h) _ _ r8 q

theorem pay3_read (r8 : Fin 8) (q : Fin 128) : k1_pay3 (F := Ideal) (ix2 r8 q) = 0 := Ideal.ofBits_zero_f32
theorem pay4_read (r8 : Fin 8) (q : Fin 128) : k1_pay4 (F := Ideal) (ix2 r8 q) = 0 := Ideal.ofBits_zero_f32

theorem rsqrt_read {s : Shape} (v : FVec Ideal s .f32) (i : s.Idx) : rsqrt v i = Ideal.rsqrt (v i) := rfl

def act (x : Vec Ideal S4000x128 .f32) (var mean gamma beta : Vec Ideal S1x128 .f32) : FVec Ideal S4000x128 .f32 :=
  maximumf (addf (mulf (mulf (subf (shapeCast S4000x128 x shapeCasts_S4000x128_S4000x128)
          (broadcastTo S4000x128 (shapeCast S1x128 mean shapeCasts_S1x128_S1x128) broadcasts_S1x128_S4000x128))
        (broadcastTo S4000x128 (rsqrt (addf (shapeCast S1x128 var shapeCasts_S1x128_S1x128)
          (broadcast S1x128 (Scalar.ofBits (F := Ideal) .f32 0x3727C5AC#32)))) broadcasts_S1x128_S4000x128))
      (broadcastTo S4000x128 (shapeCast S1x128 gamma shapeCasts_S1x128_S1x128) broadcasts_S1x128_S4000x128))
      (broadcastTo S4000x128 (shapeCast S1x128 beta shapeCasts_S1x128_S1x128) broadcasts_S1x128_S4000x128))
    (broadcast S4000x128 (Scalar.ofBits (F := Ideal) .f32 0x00000000#32))

theorem pay5_eq (x : Vec Ideal S4000x128 .f32) (var mean gamma beta : Vec Ideal S1x128 .f32) (w2 : Vec Ideal S128x128 .f32)
    (b2 : Vec Ideal S1x128 .f32) :
    k1_pay5 (F := Ideal) x var mean gamma beta w2 b2
      = addf (matmul (F := Ideal) dot_S4000x128_S128x128_S4000x128_1_0_0_1_n_n none
            (truncf .bf16 (act x var mean gamma beta) bitsLt_bf16_f32)
            (truncf .bf16 (shapeCast S128x128 w2 shapeCasts_S128x128_S128x128) bitsLt_bf16_f32)
            (constant (F := Ideal) S4000x128 .f32 0x00000000#32))
          (broadcastTo S4000x128 (shapeCast S1x128 b2 shapeCasts_S1x128_S1x128) broadcasts_S1x128_S4000x128) := rfl

theorem act_read (x : Vec Ideal S4000x128 .f32) (var mean gamma beta : Vec Ideal S1x128 .f32) (r : Fin 4000) (k : Fin 128) :
    act x var mean gamma beta (ix2 r k)
      = max ((cur2 x r k - cur2 mean (0 : Fin 1) k) * Ideal.rsqrt (cur2 var (0 : Fin 1) k + cEps)
            * cur2 gamma (0 : Fin 1) k + cur2 beta (0 : Fin 1) k) c0 := by
  unfold act
  simp only [shapeCast_self, maximumf_apply, addf_apply, mulf_apply, subf_apply, broadcastTo_1b_ab_apply, rsqrt_read]
  rfl

theorem pay5_read (x : Vec Ideal S4000x128 .f32) (var mean gamma beta : Vec Ideal S1x128 .f32) (w2 : Vec Ideal S128x128 .f32)
    (b2 : Vec Ideal S1x128 .f32) (r : Fin 4000) (q : Fin 128) :
    k1_pay5 (F := Ideal) x var mean gamma beta w2 b2 (ix2 r q)
      = (∑ k : Fin 128, max ((cur2 x r k - cur2 mean (0 : Fin 1) k) * Ideal.rsqrt (cur2 var (0 : Fin 1) k + cEps)
            * cur2 gamma (0 : Fin 1) k + cur2 beta (0 : Fin 1) k) c0 * cur2 w2 k q) + cur2 b2 (0 : Fin 1) q := by
  rw [pay5_eq]
  refine (addf_apply _ _ _).trans ?_
  refine congrArg₂ (· + ·) ?_ ?_
  · refine (mm_read _ _ r q).trans ?_
    refine Finset.sum_congr rfl fun k _ => ?_
    refine congrArg₂ (· * ·) ?_ ?_
    · exact act_read x var mean gamma beta r k
    · show shapeCast S128x128 w2 shapeCasts_S128x128_S128x128 (ix2 k q) = _
      rw [shapeCast_self]; rfl
  · refine (broadcastTo_1b_ab_apply _ _ r q).trans ?_
    rw [shapeCast_self]; rfl

variable (V : (c : Dev nD) → (b : Ref sig .tc) → Buf (Elt Ideal) ((c : Thread nD τ).loc b))

theorem idx1_rows : ∀ t : Fin cfg1.N, win1_0.index t (0 : Fin 2) = t.val ∧ win1_0.index t (1 : Fin 2) = 0
    ∧ win1_7.index t (0 : Fin 2) = t.val ∧ win1_7.index t (1 : Fin 2) = 0 :=
  (by decide +kernel : ∀ t : Fin grid1.N, _)

theorem idx1_whole : ∀ t : Fin cfg1.N, win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

theorem iblk1_w0 (c : Dev nD) (t : Fin cfg1.N) (r : Fin 4000) (q : Fin 128) :
    cur2 (n0 := 4000) (n1 := 128) (iblk1 (F := Ideal) V c 0 t) r q
      = cur2 (n0 := 200000) (n1 := 128) (V c main_v52_0) (⟨4000 * t.val + r.val, by have := t.isLt; have := r.isLt; have hN : cfg1.N = 50 := N_1; omega⟩ : Fin 200000) q := by
  have e := idx1_rows t
  show V c main_v52_0 (((cfg1.win 0).blk t).view.emb (ix2 r q)) = V c main_v52_0 (ix2 (⟨4000 * t.val + r.val, by have := t.isLt; have := r.isLt; have hN : cfg1.N = 50 := N_1; omega⟩ : Fin 200000) q)
  refine congrArg (V c main_v52_0) (funext fun d => Fin.ext ?_)
  match d with
  | ⟨0, _⟩ => show win1_0.index t (0 : Fin 2) * 4000 + 1 * r.val = 4000 * t.val + r.val; omega
  | ⟨1, _⟩ => show win1_0.index t (1 : Fin 2) * 128 + 1 * q.val = q.val; omega

theorem iblk1_w1 (c : Dev nD) (t : Fin cfg1.N) (a : Fin 1) (b : Fin 128) :
    cur2 (n0 := 1) (n1 := 128) (iblk1 (F := Ideal) V c 1 t) a b = cur2 (n0 := 1) (n1 := 128) (V c main_v35) a b := by
  have e := idx1_whole t
  show V c main_v35 (((cfg1.win 1).blk t).view.emb (ix2 a b)) = V c main_v35 (ix2 a b)
  refine congrArg (V c main_v35) (funext fun d => Fin.ext ?_)
  match d with
  | ⟨0, _⟩ => show win1_1.index t (0 : Fin 2) * 1 + 1 * a.val = a.val; omega
  | ⟨1, _⟩ => show win1_1.index t (1 : Fin 2) * 128 + 1 * b.val = b.val; omega

theorem iblk1_w2 (c : Dev nD) (t : Fin cfg1.N) (a : Fin 1) (b : Fin 128) :
    cur2 (n0 := 1) (n1 := 128) (iblk1 (F := Ideal) V c 2 t) a b = cur2 (n0 := 1) (n1 := 128) (V c main_v39) a b := by
  have e := idx1_whole t
  show V c main_v39 (((cfg1.win 2).blk t).view.emb (ix2 a b)) = V c main_v39 (ix2 a b)
  refine congrArg (V c main_v39) (funext fun d => Fin.ext ?_)
  match d with
  | ⟨0, _⟩ => show win1_2.index t (0 : Fin 2) * 1 + 1 * a.val = a.val; omega
  | ⟨1, _⟩ => show win1_2.index t (1 : Fin 2) * 128 + 1 * b.val = b.val; omega

theorem iblk1_w3 (c : Dev nD) (t : Fin cfg1.N) (a : Fin 1) (b : Fin 128) :
    cur2 (n0 := 1) (n1 := 128) (iblk1 (F := Ideal) V c 3 t) a b = cur2 (n0 := 1) (n1 := 128) (V c main_v74) a b := by
  have e := idx1_whole t
  show V c main_v74 (((cfg1.win 3).blk t).view.emb (ix2 a b)) = V c main_v74 (ix2 a b)
  refine congrArg (V c main_v74) (funext fun d => Fin.ext ?_)
  match d with
  | ⟨0, _⟩ => show win1_3.index t (0 : Fin 2) * 1 + 1 * a.val = a.val; omega
  | ⟨1, _⟩ => show win1_3.index t (1 : Fin 2) * 128 + 1 * b.val = b.val; omega

theorem iblk1_w4 (c : Dev nD) (t : Fin cfg1.N) (a : Fin 1) (b : Fin 128) :
    cur2 (n0 := 1) (n1 := 128) (iblk1 (F := Ideal) V c 4 t) a b = cur2 (n0 := 1) (n1 := 128) (V c main_v78) a b := by
  have e := idx1_whole t
  show V c main_v78 (((cfg1.win 4).blk t).view.emb (ix2 a b)) = V c main_v78 (ix2 a b)
  refine congrArg (V c main_v78) (funext fun d => Fin.ext ?_)
  match d with
  | ⟨0, _⟩ => show win1_4.index t (0 : Fin 2) * 1 + 1 * a.val = a.val; omega
  | ⟨1, _⟩ => show win1_4.index t (1 : Fin 2) * 128 + 1 * b.val = b.val; omega

theorem iblk1_w5 (c : Dev nD) (t : Fin cfg1.N) (a : Fin 128) (b : Fin 128) :
    cur2 (n0 := 128) (n1 := 128) (iblk1 (F := Ideal) V c 5 t) a b = cur2 (n0 := 128) (n1 := 128) (V c main_v27) a b := by
  have e := idx1_whole t
  show V c main_v27 (((cfg1.win 5).blk t).view.emb (ix2 a b)) = V c main_v27 (ix2 a b)
  refine congrArg (V c main_v27) (funext fun d => Fin.ext ?_)
  match d with
  | ⟨0, _⟩ => show win1_5.index t (0 : Fin 2) * 128 + 1 * a.val = a.val; omega
  | ⟨1, _⟩ => show win1_5.index t (1 : Fin 2) * 128 + 1 * b.val = b.val; omega

theorem iblk1_w6 (c : Dev nD) (t : Fin cfg1.N) (a : Fin 1) (b : Fin 128) :
    cur2 (n0 := 1) (n1 := 128) (iblk1 (F := Ideal) V c 6 t) a b = cur2 (n0 := 1) (n1 := 128) (V c main_v43) a b := by
  have e := idx1_whole t
  show V c main_v43 (((cfg1.win 6).blk t).view.emb (ix2 a b)) = V c main_v43 (ix2 a b)
  refine congrArg (V c main_v43) (funext fun d => Fin.ext ?_)
  match d with
  | ⟨0, _⟩ => show win1_6.index t (0 : Fin 2) * 1 + 1 * a.val = a.val; omega
  | ⟨1, _⟩ => show win1_6.index t (1 : Fin 2) * 128 + 1 * b.val = b.val; omega

end Cert.KernelIdeal.Fr.R1

end
-- ==== Proof.KI.R1.Value.lean ====
import proofs.«416909_j55972013802026_3_alg».proof.Proof.KI.R1.Frame
import proofs.«416909_j55972013802026_3_alg».proof.Proof.KI.R1.Pay
import proofs.«416909_j55972013802026_3_alg».proof.Proof.Spec
import Idealize.ShloMosaic.Lib.Pipeline.Value
import Idealize.ShloMosaic.Lib.ValueIdx
import Idealize.ShloMosaic.PureOps.Ideal.Laws

/-! Second call: the activation array, tile by tile, and the accumulators as folds over a half's tiles. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

namespace R1V

section Cases
variable {F : FTy → Type} [FloatOps F]

theorem zeroOff1 : (![0, 0] : Fin 2 → Nat) = fun _ => 0 := funext fun a => by fin_cases a <;> rfl

section Body

variable (c : Dev nD) (i : grid1.Coords) (arg2 : Memref sig .tc .vmem S4000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S4000x128 .f32) (harg9 : arg9.IsWhole) (arg10 : Memref sig .tc .vmem S8x128 .f32) (harg10 : arg10.IsWhole) (arg11 : Memref sig .tc .vmem S8x128 .f32) (harg11 : arg11.IsWhole)

section A

variable (hc0 : cond1_0 i) (x0 : Vec F S4000x128 .f32) (x1 : Vec F S1x128 .f32) (x2 : Vec F S1x128 .f32) (x3 : Vec F S1x128 .f32) (x4 : Vec F S1x128 .f32) (x5 : Vec F S128x128 .f32) (x6 : Vec F S1x128 .f32)

theorem out1_A_7_eq :
    out1_A_7 c i arg2 harg2 arg3 harg3 arg4 harg4 arg5 harg5 arg6 harg6 arg7 harg7 arg8 harg8 arg9 harg9 arg10 harg10 arg11 harg11 hc0 x0 x1 x2 x3 x4 x5 x6 = k1_pay5 x0 x4 x3 x1 x2 x5 x6 := by
  unfold out1_A_7
  rw [View.read_writes_eq_canon _ _ _ (cover1_A_7 c i arg2 harg2 arg3 harg3 arg4 harg4 arg5 harg5 arg6 harg6 arg7 harg7 arg8 harg8 arg9 harg9 arg10 harg10 arg11 harg11 hc0 x0 x1 x2 x3 x4 x5 x6)]
  unfold kernelRun1_A
  dsimp only
  sl_unfold_words
  rw [View.canon_unit_zero (S := S4000x128) zeroOff1]
  simp only [View.readAt_eq_ld, harg2.read_unread, harg3.read_unread, harg4.read_unread, harg5.read_unread, harg6.read_unread, harg7.read_unread, harg8.read_unread, View.ld_unit_zero (S := S4000x128) zeroOff1, View.ld_unit_zero (S := S1x128) zeroOff1, View.ld_unit_zero (S := S128x128) zeroOff1, View.ld_unit_zero (S := S8x128) zeroOff1]

theorem out1_A_8_eq :
    out1_A_8 c i arg2 harg2 arg3 harg3 arg4 harg4 arg5 harg5 arg6 harg6 arg7 harg7 arg8 harg8 arg9 harg9 arg10 harg10 arg11 harg11 hc0 x0 x1 x2 x3 x4 x5 x6 = k1_pay1 (k1_pay5 x0 x4 x3 x1 x2 x5 x6) (k1_pay3 (F := F)) := by
  unfold out1_A_8
  rw [View.read_writes_eq_canon _ _ _ (cover1_A_8 c i arg2 harg2 arg3 harg3 arg4 harg4 arg5 harg5 arg6 harg6 arg7 harg7 arg8 harg8 arg9 harg9 arg10 harg10 arg11 harg11 hc0 x0 x1 x2 x3 x4 x5 x6)]
  unfold kernelRun1_A
  dsimp only
  sl_unfold_words
  rw [View.canon_cons_unit_zero (S := S8x128) zeroOff1, View.readCov_unit_zero (S := S8x128) _ zeroOff1]
  simp only [View.readAt_eq_ld, harg2.read_unread, harg3.read_unread, harg4.read_unread, harg5.read_unread, harg6.read_unread, harg7.read_unread, harg8.read_unread, View.ld_unit_zero (S := S4000x128) zeroOff1, View.ld_unit_zero (S := S1x128) zeroOff1, View.ld_unit_zero (S := S128x128) zeroOff1, View.ld_unit_zero (S := S8x128) zeroOff1]

theorem out1_A_9_eq :
    out1_A_9 c i arg2 harg2 arg3 harg3 arg4 harg4 arg5 harg5 arg6 harg6 arg7 harg7 arg8 harg8 arg9 harg9 arg10 harg10 arg11 harg11 hc0 x0 x1 x2 x3 x4 x5 x6 = k1_pay2 (k1_pay5 x0 x4 x3 x1 x2 x5 x6) (k1_pay4 (F := F)) := by
  unfold out1_A_9
  rw [View.read_writes_eq_canon _ _ _ (cover1_A_9 c i arg2 harg2 arg3 harg3 arg4 harg4 arg5 harg5 arg6 harg6 arg7 harg7 arg8 harg8 arg9 harg9 arg10 harg10 arg11 harg11 hc0 x0 x1 x2 x3 x4 x5 x6)]
  unfold kernelRun1_A
  dsimp only
  sl_unfold_words
  rw [View.canon_cons_unit_zero (S := S8x128) zeroOff1, View.readCov_unit_zero (S := S8x128) _ zeroOff1]
  simp only [View.readAt_eq_ld, harg2.read_unread, harg3.read_unread, harg4.read_unread, harg5.read_unread, harg6.read_unread, harg7.read_unread, harg8.read_unread, View.ld_unit_zero (S := S4000x128) zeroOff1, View.ld_unit_zero (S := S1x128) zeroOff1, View.ld_unit_zero (S := S128x128) zeroOff1, View.ld_unit_zero (S := S8x128) zeroOff1]

end A

section B

variable (hc0 : ¬cond1_0 i) (x0 : Vec F S4000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S8x128 .f32) (xo9 : Vec F S8x128 .f32)

theorem out1_B_7_eq :
    out1_B_7 c i arg2 harg2 arg3 harg3 arg4 harg4 arg5 harg5 arg6 harg6 arg7 harg7 arg8 harg8 arg9 harg9 arg10 harg10 arg11 harg11 hc0 x0 x1 x2 x3 x4 x5 x6 xo8 xo9 = k1_pay5 x0 x4 x3 x1 x2 x5 x6 := by
  unfold out1_B_7
  rw [View.read_writes_eq_canon _ _ _ (cover1_B_7 c i arg2 harg2 arg3 harg3 arg4 harg4 arg5 harg5 arg6 harg6 arg7 harg7 arg8 harg8 arg9 harg9 arg10 harg10 arg11 harg11 hc0 x0 x1 x2 x3 x4 x5 x6 xo8 xo9)]
  unfold kernelRun1_B
  dsimp only
  sl_unfold_words
  rw [View.canon_unit_zero (S := S4000x128) zeroOff1]
  simp only [View.readAt_eq_ld, harg2.read_unread, harg3.read_unread, harg4.read_unread, harg5.read_unread, harg6.read_unread, harg7.read_unread, harg8.read_unread, harg10.read_unread, harg11.read_unread, View.ld_unit_zero (S := S4000x128) zeroOff1, View.ld_unit_zero (S := S1x128) zeroOff1, View.ld_unit_zero (S := S128x128) zeroOff1, View.ld_unit_zero (S := S8x128) zeroOff1]

theorem out1_B_8_eq :
    out1_B_8 c i arg2 harg2 arg3 harg3 arg4 harg4 arg5 harg5 arg6 harg6 arg7 harg7 arg8 harg8 arg9 harg9 arg10 harg10 arg11 harg11 hc0 x0 x1 x2 x3 x4 x5 x6 xo8 xo9 = k1_pay1 (k1_pay5 x0 x4 x3 x1 x2 x5 x6) xo8 := by
  unfold out1_B_8
  rw [View.read_writes_eq_canon _ _ _ (cover1_B_8 c i arg2 harg2 arg3 harg3 arg4 harg4 arg5 harg5 arg6 harg6 arg7 harg7 arg8 harg8 arg9 harg9 arg10 harg10 arg11 harg11 hc0 x0 x1 x2 x3 x4 x5 x6 xo8 xo9)]
  unfold kernelRun1_B
  dsimp only
  sl_unfold_words
  rw [View.canon_unit_zero (S := S8x128) zeroOff1]
  simp only [View.readAt_eq_ld, harg2.read_unread, harg3.read_unread, harg4.read_unread, harg5.read_unread, harg6.read_unread, harg7.read_unread, harg8.read_unread, harg10.read_unread, harg11.read_unread, View.ld_unit_zero (S := S4000x128) zeroOff1, View.ld_unit_zero (S := S1x128) zeroOff1, View.ld_unit_zero (S := S128x128) zeroOff1, View.ld_unit_zero (S := S8x128) zeroOff1]

theorem out1_B_9_eq :
    out1_B_9 c i arg2 harg2 arg3 harg3 arg4 harg4 arg5 harg5 arg6 harg6 arg7 harg7 arg8 harg8 arg9 harg9 arg10 harg10 arg11 harg11 hc0 x0 x1 x2 x3 x4 x5 x6 xo8 xo9 = k1_pay2 (k1_pay5 x0 x4 x3 x1 x2 x5 x6) xo9 := by
  unfold out1_B_9
  rw [View.read_writes_eq_canon _ _ _ (cover1_B_9 c i arg2 harg2 arg3 harg3 arg4 harg4 arg5 harg5 arg6 harg6 arg7 harg7 arg8 harg8 arg9 harg9 arg10 harg10 arg11 harg11 hc0 x0 x1 x2 x3 x4 x5 x6 xo8 xo9)]
  unfold kernelRun1_B
  dsimp only
  sl_unfold_words
  rw [View.canon_unit_zero (S := S8x128) zeroOff1]
  simp only [View.readAt_eq_ld, harg2.read_unread, harg3.read_unread, harg4.read_unread, harg5.read_unread, harg6.read_unread, harg7.read_unread, harg8.read_unread, harg10.read_unread, harg11.read_unread, View.ld_unit_zero (S := S4000x128) zeroOff1, View.ld_unit_zero (S := S1x128) zeroOff1, View.ld_unit_zero (S := S128x128) zeroOff1, View.ld_unit_zero (S := S8x128) zeroOff1]

end B

end Body

end Cases

section Chain
variable {F : FTy → Type} [FloatOps F]
variable (V : (c : Dev nD) → (b : Ref sig .tc) → Buf (Elt F) ((c : Thread nD τ).loc b))

def rows (c : Dev nD) (n : ℕ) (h : n < cfg1.N) : Vec F S4000x128 .f32 :=
  k1_pay5 (iblk1 V c 0 ⟨n, h⟩) (iblk1 V c 4 ⟨n, h⟩) (iblk1 V c 3 ⟨n, h⟩) (iblk1 V c 1 ⟨n, h⟩) (iblk1 V c 2 ⟨n, h⟩) (iblk1 V c 5 ⟨n, h⟩) (iblk1 V c 6 ⟨n, h⟩)

theorem outs_rows (c : Dev nD) (n : ℕ) (h : n < cfg1.N) : (outsAt1 V c n h).1 = rows V c n h := by
  unfold rows
  by_cases h0 : n % 25 = 0
  · rw [outsAt1_A V c ⟨n, h⟩ h0]
    dsimp only [outs1_A]
    exact out1_A_7_eq c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) (ms1_6 ⟨n, h⟩) (hs1_6 ⟨n, h⟩) (ms1_7 ⟨n, h⟩) (hs1_7 ⟨n, h⟩) (ms1_8 ⟨n, h⟩) (hs1_8 ⟨n, h⟩) (ms1_9 ⟨n, h⟩) (hs1_9 ⟨n, h⟩) ((hcond1_0 ⟨n, h⟩).mpr h0) (iblk1 V c 0 ⟨n, h⟩) (iblk1 V c 1 ⟨n, h⟩) (iblk1 V c 2 ⟨n, h⟩) (iblk1 V c 3 ⟨n, h⟩) (iblk1 V c 4 ⟨n, h⟩) (iblk1 V c 5 ⟨n, h⟩) (iblk1 V c 6 ⟨n, h⟩)
  · rw [outsAt1_B V c ⟨n, h⟩ h0]
    dsimp only [outs1_B]
    exact out1_B_7_eq c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) (ms1_6 ⟨n, h⟩) (hs1_6 ⟨n, h⟩) (ms1_7 ⟨n, h⟩) (hs1_7 ⟨n, h⟩) (ms1_8 ⟨n, h⟩) (hs1_8 ⟨n, h⟩) (ms1_9 ⟨n, h⟩) (hs1_9 ⟨n, h⟩) (fun hh => h0 ((hcond1_0 ⟨n, h⟩).mp hh)) (iblk1 V c 0 ⟨n, h⟩) (iblk1 V c 1 ⟨n, h⟩) (iblk1 V c 2 ⟨n, h⟩) (iblk1 V c 3 ⟨n, h⟩) (iblk1 V c 4 ⟨n, h⟩) (iblk1 V c 5 ⟨n, h⟩) (iblk1 V c 6 ⟨n, h⟩) _ _

theorem sums_reset (c : Dev nD) (n : ℕ) (h : n < cfg1.N) (h0 : n % 25 = 0) :
    (outsAt1 V c n h).2.1 = k1_pay1 (rows V c n h) (k1_pay3 (F := F)) := by
  unfold rows
  rw [outsAt1_A V c ⟨n, h⟩ h0]
  dsimp only [outs1_A]
  exact out1_A_8_eq c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) (ms1_6 ⟨n, h⟩) (hs1_6 ⟨n, h⟩) (ms1_7 ⟨n, h⟩) (hs1_7 ⟨n, h⟩) (ms1_8 ⟨n, h⟩) (hs1_8 ⟨n, h⟩) (ms1_9 ⟨n, h⟩) (hs1_9 ⟨n, h⟩) ((hcond1_0 ⟨n, h⟩).mpr h0) (iblk1 V c 0 ⟨n, h⟩) (iblk1 V c 1 ⟨n, h⟩) (iblk1 V c 2 ⟨n, h⟩) (iblk1 V c 3 ⟨n, h⟩) (iblk1 V c 4 ⟨n, h⟩) (iblk1 V c 5 ⟨n, h⟩) (iblk1 V c 6 ⟨n, h⟩)

theorem sums_step (c : Dev nD) (n : ℕ) (h : n + 1 < cfg1.N) (h0 : ¬(n + 1) % 25 = 0) :
    (outsAt1 V c (n + 1) h).2.1 = k1_pay1 (rows V c (n + 1) h) (outsAt1 V c n (Nat.lt_of_succ_lt h)).2.1 := by
  unfold rows
  rw [outsAt1_B V c ⟨n + 1, h⟩ h0]
  dsimp only [outs1_B]
  exact out1_B_8_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (ms1_9 ⟨n + 1, h⟩) (hs1_9 ⟨n + 1, h⟩) (fun hh => h0 ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (outsAt1 V c n (Nat.lt_of_succ_lt h)).2.1 (outsAt1 V c n (Nat.lt_of_succ_lt h)).2.2

theorem sqs_reset (c : Dev nD) (n : ℕ) (h : n < cfg1.N) (h0 : n % 25 = 0) :
    (outsAt1 V c n h).2.2 = k1_pay2 (rows V c n h) (k1_pay4 (F := F)) := by
  unfold rows
  rw [outsAt1_A V c ⟨n, h⟩ h0]
  dsimp only [outs1_A]
  exact out1_A_9_eq c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) (ms1_6 ⟨n, h⟩) (hs1_6 ⟨n, h⟩) (ms1_7 ⟨n, h⟩) (hs1_7 ⟨n, h⟩) (ms1_8 ⟨n, h⟩) (hs1_8 ⟨n, h⟩) (ms1_9 ⟨n, h⟩) (hs1_9 ⟨n, h⟩) ((hcond1_0 ⟨n, h⟩).mpr h0) (iblk1 V c 0 ⟨n, h⟩) (iblk1 V c 1 ⟨n, h⟩) (iblk1 V c 2 ⟨n, h⟩) (iblk1 V c 3 ⟨n, h⟩) (iblk1 V c 4 ⟨n, h⟩) (iblk1 V c 5 ⟨n, h⟩) (iblk1 V c 6 ⟨n, h⟩)

theorem sqs_step (c : Dev nD) (n : ℕ) (h : n + 1 < cfg1.N) (h0 : ¬(n + 1) % 25 = 0) :
    (outsAt1 V c (n + 1) h).2.2 = k1_pay2 (rows V c (n + 1) h) (outsAt1 V c n (Nat.lt_of_succ_lt h)).2.2 := by
  unfold rows
  rw [outsAt1_B V c ⟨n + 1, h⟩ h0]
  dsimp only [outs1_B]
  exact out1_B_9_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (ms1_9 ⟨n + 1, h⟩) (hs1_9 ⟨n + 1, h⟩) (fun hh => h0 ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (outsAt1 V c n (Nat.lt_of_succ_lt h)).2.1 (outsAt1 V c n (Nat.lt_of_succ_lt h)).2.2

theorem sums_fold (c : Dev nD) (t : ℕ) (ht : t < cfg1.N) (h' : 25 * (t / 25) + t % 25 < cfg1.N) :
    (outsAt1 V c t ht).2.1 = Pipeline.accAt (fun n h => k1_pay1 (rows V c n h) (k1_pay3 (F := F)))
      (fun n h acc => k1_pay1 (rows V c n h) acc) (25 * (t / 25)) (t % 25) h' :=
  Pipeline.eq_accAt_of_mod (fun n h => (outsAt1 V c n h).2.1) 25 _ _ (fun n h h0 => sums_reset V c n h h0)
    (fun n h h0 => sums_step V c n h h0) (by decide) t ht h'

theorem sqs_fold (c : Dev nD) (t : ℕ) (ht : t < cfg1.N) (h' : 25 * (t / 25) + t % 25 < cfg1.N) :
    (outsAt1 V c t ht).2.2 = Pipeline.accAt (fun n h => k1_pay2 (rows V c n h) (k1_pay4 (F := F)))
      (fun n h acc => k1_pay2 (rows V c n h) acc) (25 * (t / 25)) (t % 25) h' :=
  Pipeline.eq_accAt_of_mod (fun n h => (outsAt1 V c n h).2.2) 25 _ _ (fun n h h0 => sqs_reset V c n h h0)
    (fun n h h0 => sqs_step V c n h h0) (by decide) t ht h'

end Chain

end R1V

section Rows
variable (V : (c : Dev nD) → (b : Ref sig .tc) → Buf (Elt Ideal) ((c : Thread nD τ).loc b))

def a1 (c : Dev nD) (p : Fin 200000) (k : Fin 128) : EReal :=
  max ((EdgeNet.cur2 (V c main_v52_0) p k - EdgeNet.cur2 (V c main_v74) (0 : Fin 1) k) * Ideal.rsqrt (EdgeNet.cur2 (V c main_v78) (0 : Fin 1) k + EdgeNet.cEps)
       * EdgeNet.cur2 (V c main_v35) (0 : Fin 1) k + EdgeNet.cur2 (V c main_v39) (0 : Fin 1) k) EdgeNet.c0

namespace R1V

def h2Fn (c : Dev nD) (p : Fin 200000) (q : Fin 128) : EReal :=
  (∑ k : Fin 128, a1 V c p k * EdgeNet.cur2 (V c main_v27) k q) + EdgeNet.cur2 (V c main_v43) (0 : Fin 1) q

def h2Arr (c : Dev nD) : Vec Ideal S200000x128 .f32 := fun i => h2Fn V c (i 0) (i 1)

theorem rows_apply (c : Dev nD) (t : Fin cfg1.N) (r : Fin 4000) (q : Fin 128) :
    rows V c t.val t.isLt (ix2 r q)
      = h2Fn V c ⟨4000 * t.val + r.val, by have := t.isLt; have := r.isLt; have hN : cfg1.N = 50 := N_1; omega⟩ q := by
  show k1_pay5 (F := Ideal) (iblk1 V c 0 t) (iblk1 V c 4 t) (iblk1 V c 3 t) (iblk1 V c 1 t) (iblk1 V c 2 t) (iblk1 V c 5 t) (iblk1 V c 6 t) (ix2 r q) = _
  refine (R1.pay5_read (iblk1 V c 0 t) (iblk1 V c 4 t) (iblk1 V c 3 t) (iblk1 V c 1 t) (iblk1 V c 2 t) (iblk1 V c 5 t) (iblk1 V c 6 t) r q).trans ?_
  unfold h2Fn
  rw [R1.iblk1_w6 V c t 0 q]
  refine congrArg (· + _) (Finset.sum_congr rfl fun k _ => ?_)
  rw [R1.iblk1_w0 V c t r k, R1.iblk1_w3 V c t 0 k, R1.iblk1_w4 V c t 0 k, R1.iblk1_w1 V c t 0 k, R1.iblk1_w2 V c t 0 k, R1.iblk1_w5 V c t k q]
  rfl

theorem outIdx7 : ∀ t : Fin cfg1.N, win1_7.index t (0 : Fin 2) = t.val ∧ win1_7.index t (1 : Fin 2) = 0 :=
  (by decide +kernel : ∀ t : Fin grid1.N, win1_7.index t (0 : Fin 2) = t.val ∧ win1_7.index t (1 : Fin 2) = 0)

theorem flushed7_eq (c : Dev nD) (t : Fin cfg1.N) :
    (dat1 (F := Ideal) V c).flushed 7 t = ((cfg1.win 7).blk t).view.read (Elt Ideal) (h2Arr V c) := by
  show (cfg1.win 7).cut (grid1.coords t) ((dat1 V c).after 7 t) = _
  rw [after1_7, outs_rows]
  obtain ⟨e0, e1⟩ := outIdx7 t
  funext y
  show rows V c t.val t.isLt y = h2Arr V c (((cfg1.win 7).blk t).view.emb y)
  have hy0 : (y 0).val < 4000 := (y 0).isLt
  have hy1 : (y 1).val < 128 := (y 1).isLt
  have ht : t.val < 50 := lt_of_lt_of_eq t.isLt (show cfg1.N = 50 from N_1)
  have hemb : (((cfg1.win 7).blk t).view.emb y : S200000x128.Idx)
      = ix2 (⟨4000 * t.val + (y 0).val, by omega⟩ : Fin 200000) (⟨(y 1).val, hy1⟩ : Fin 128) := by
    funext a; apply Fin.ext
    match a with
    | ⟨0, _⟩ => show win1_7.index t (0 : Fin 2) * 4000 + 1 * (y 0).val = 4000 * t.val + (y 0).val; rw [e0]; omega
    | ⟨1, _⟩ => show win1_7.index t (1 : Fin 2) * 128 + 1 * (y 1).val = (y 1).val; rw [e1]; omega
  have hy : (y : S4000x128.Idx) = ix2 (⟨(y 0).val, hy0⟩ : Fin 4000) (⟨(y 1).val, hy1⟩ : Fin 128) := by
    funext a
    match a with
    | ⟨0, _⟩ => rfl
    | ⟨1, _⟩ => rfl
  refine Eq.trans ?_ (congrArg (h2Arr V c) hemb.symm)
  refine (congrArg (rows V c t.val t.isLt) hy).trans ?_
  exact rows_apply V c t ⟨(y 0).val, hy0⟩ ⟨(y 1).val, hy1⟩

theorem mem_blk7 (t : Fin cfg1.N) (i : S200000x128.Idx) :
    i ∈ ((cfg1.win 7).blk t).view.set ↔ ∀ a : Fin 2, win1_7.index t a * S4000x128.size a ≤ (i a).val ∧ (i a).val < win1_7.index t a * S4000x128.size a + S4000x128.size a := by
  show i ∈ ((View.whole main_v79_0).slice (win1_7.rect t)).set ↔ _
  rw [View.set_slice_whole, Rect.mem_set_unit]
  exact Iff.rfl

theorem final7 (c : Dev nD) : (dat1 (F := Ideal) V c).arrAt 7 cfg1.N = h2Arr V c :=
  (dat1 V c).arrAt_eq_of_cover 7 (h2Arr V c) (fun t _ => flushed7_eq V c t) fun i => by
    have hi0 : (i 0 : Nat) < 200000 := (i 0).isLt
    have hi1 : (i 1 : Nat) < 128 := (i 1).isLt
    have hN : cfg1.N = 50 := N_1
    refine ⟨⟨(i 0 : Nat) / 4000, by omega⟩, flush1_7 _, ?_⟩
    rw [mem_blk7]
    obtain ⟨e0, e1⟩ := outIdx7 ⟨(i 0 : Nat) / 4000, by omega⟩
    intro a
    match a with
    | ⟨0, _⟩ => show win1_7.index _ (0 : Fin 2) * 4000 ≤ (i 0 : Nat) ∧ (i 0 : Nat) < win1_7.index _ (0 : Fin 2) * 4000 + 4000
                rw [e0]; dsimp only; omega
    | ⟨1, _⟩ => show win1_7.index _ (1 : Fin 2) * 128 ≤ (i 1 : Nat) ∧ (i 1 : Nat) < win1_7.index _ (1 : Fin 2) * 128 + 128
                rw [e1]; omega

end R1V

theorem h2_read (c : Dev nD) (p : Fin 200000) (q : Fin 128) :
    ((dat1 (F := Ideal) V c).arrAt 7 cfg1.N : Vec Ideal S200000x128 .f32) (ix2 p q)
      = (∑ k : Fin 128, a1 V c p k * EdgeNet.cur2 (V c main_v27) k q) + EdgeNet.cur2 (V c main_v43) (0 : Fin 1) q := by
  rw [R1V.final7 V c]
  rfl

theorem h2_block (c : Dev nD) (t : Fin cfg1.N) (r : Fin 4000) (q : Fin 128) :
    EdgeNet.cur2 ((dat1 (F := Ideal) V c).arrAt 7 cfg1.N) ⟨4000 * t.val + r.val, by have := t.isLt; have := r.isLt; have hN : cfg1.N = 50 := N_1; omega⟩ q
      = R1V.rows V c t.val t.isLt (ix2 r q) := by
  rw [R1V.final7 V c]
  exact (R1V.rows_apply V c t r q).symm

end Rows

end Cert.KernelIdeal.Fr

end
-- ==== Proof.KI.R1.ValueAcc.lean ====
import proofs.«416909_j55972013802026_3_alg».proof.Proof.KI.R1.Frame
import proofs.«416909_j55972013802026_3_alg».proof.Proof.KI.R1.Value
import proofs.«416909_j55972013802026_3_alg».proof.Proof.Spec
import Idealize.ShloMosaic.Lib.Pipeline.Value
import Idealize.ShloMosaic.Lib.ValueIdx
import Idealize.ShloMosaic.Lib.ValueLayout
import Idealize.ShloMosaic.PureOps.Ideal.Laws

/-! Second call: the accumulated column sums and sums of squares of each half. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL.Sem
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

namespace R1A

theorem laneSum_read (src : FVec Ideal S4000x128 .f32) (q : Fin 128) :
    multiReduction .add [0] S128 src 0x00000000#32 reduces_S4000x128_S128 (.inl rfl) rfl (ix1 q) = ∑ r : Fin 4000, src (ix2 r q) := by
  refine (Ideal.multiReduction_add_single src 0x00000000#32 reduces_S4000x128_S128 (.inl rfl) rfl (ix1 q)).trans ?_
  show ∑ r : Fin 4000, src (reduces_S4000x128_S128.lift (ix1 q) r) = _
  refine Finset.sum_congr rfl fun r _ => congrArg src ?_
  funext ax
  apply Fin.ext
  match ax with
  | ⟨0, _⟩ => rfl
  | ⟨1, _⟩ => rfl

theorem sums_pay (h : FVec Ideal S4000x128 .f32) (prev : Vec Ideal S8x128 .f32) (a : Fin 8) (q : Fin 128) :
    k1_pay1 (F := Ideal) h prev (ix2 a q) = prev (ix2 a q) + ∑ r : Fin 4000, h (ix2 r q) := by
  unfold k1_pay1
  simp only [shapeCast_self]
  rw [addf_apply, broadcastTo_1b_ab_apply, shapeCast_a_1a_apply, laneSum_read]

theorem sqs_pay (h : FVec Ideal S4000x128 .f32) (prev : Vec Ideal S8x128 .f32) (a : Fin 8) (q : Fin 128) :
    k1_pay2 (F := Ideal) h prev (ix2 a q) = prev (ix2 a q) + ∑ r : Fin 4000, h (ix2 r q) * h (ix2 r q) := by
  unfold k1_pay2
  simp only [shapeCast_self]
  rw [addf_apply, broadcastTo_1b_ab_apply, shapeCast_a_1a_apply, laneSum_read]
  rfl

theorem zero_sums (a : Fin 8) (q : Fin 128) : k1_pay3 (F := Ideal) (ix2 a q) = (0 : EReal) := by
  unfold k1_pay3
  rw [broadcast_apply]
  exact Ideal.ofBits_zero_f32
theorem zero_sqs (a : Fin 8) (q : Fin 128) : k1_pay4 (F := Ideal) (ix2 a q) = (0 : EReal) := by
  unfold k1_pay4
  rw [broadcast_apply]
  exact Ideal.ofBits_zero_f32

def tileSum (c : Dev nD) (n : ℕ) (q : Fin 128) : EReal :=
  if h : n < cfg1.N then ∑ r : Fin 4000, R1V.rows V c n h (ix2 r q) else 0
def tileSq (c : Dev nD) (n : ℕ) (q : Fin 128) : EReal :=
  if h : n < cfg1.N then ∑ r : Fin 4000, R1V.rows V c n h (ix2 r q) * R1V.rows V c n h (ix2 r q) else 0

def halfSum (c : Dev nD) (j : ℕ) (q : Fin 128) : EReal := ∑ s ∈ Finset.range 25, tileSum V c (25 * j + s) q
def halfSq (c : Dev nD) (j : ℕ) (q : Fin 128) : EReal := ∑ s ∈ Finset.range 25, tileSq V c (25 * j + s) q

theorem sums_at (c : Dev nD) (t : ℕ) (ht : t < cfg1.N) (hf : t % 25 = 24) (a : Fin 8) (q : Fin 128) :
    (outsAt1 V c t ht).2.1 (ix2 a q) = halfSum V c (t / 25) q := by
  have hN : cfg1.N = 50 := N_1
  rw [R1V.sums_fold V c t ht (by omega)]
  refine (Pipeline.accAt_add_apply (ι := S8x128.Idx) (β := EReal) _ _ (fun _ => 0)
    (fun n i => tileSum V c n ⟨(i 1).val, (i 1).isLt⟩) (25 * (t / 25)) 24 ?_ ?_ (t % 25) (by omega) _ (ix2 a q)).trans ?_
  · intro h i
    obtain ⟨a', q', rfl⟩ : ∃ (a' : Fin 8) (q' : Fin 128), i = ix2 a' q' := ⟨i 0, i 1, eq_ix2 i⟩
    rw [sums_pay, zero_sums]
    unfold tileSum
    rw [dif_pos h]
  · intro n h acc i _ _
    obtain ⟨a', q', rfl⟩ : ∃ (a' : Fin 8) (q' : Fin 128), i = ix2 a' q' := ⟨i 0, i 1, eq_ix2 i⟩
    rw [sums_pay]
    unfold tileSum
    rw [dif_pos h]
  · rw [hf, zero_add]
    rfl

theorem sqs_at (c : Dev nD) (t : ℕ) (ht : t < cfg1.N) (hf : t % 25 = 24) (a : Fin 8) (q : Fin 128) :
    (outsAt1 V c t ht).2.2 (ix2 a q) = halfSq V c (t / 25) q := by
  have hN : cfg1.N = 50 := N_1
  rw [R1V.sqs_fold V c t ht (by omega)]
  refine (Pipeline.accAt_add_apply (ι := S8x128.Idx) (β := EReal) _ _ (fun _ => 0)
    (fun n i => tileSq V c n ⟨(i 1).val, (i 1).isLt⟩) (25 * (t / 25)) 24 ?_ ?_ (t % 25) (by omega) _ (ix2 a q)).trans ?_
  · intro h i
    obtain ⟨a', q', rfl⟩ : ∃ (a' : Fin 8) (q' : Fin 128), i = ix2 a' q' := ⟨i 0, i 1, eq_ix2 i⟩
    rw [sqs_pay, zero_sqs]
    unfold tileSq
    rw [dif_pos h]
  · intro n h acc i _ _
    obtain ⟨a', q', rfl⟩ : ∃ (a' : Fin 8) (q' : Fin 128), i = ix2 a' q' := ⟨i 0, i 1, eq_ix2 i⟩
    rw [sqs_pay]
    unfold tileSq
    rw [dif_pos h]
  · rw [hf, zero_add]
    rfl

def sumArr (c : Dev nD) : Vec Ideal S16x128 .f32 := fun i => halfSum V c ((i 0).val / 8) ⟨(i 1).val, (i 1).isLt⟩
def sqArr (c : Dev nD) : Vec Ideal S16x128 .f32 := fun i => halfSq V c ((i 0).val / 8) ⟨(i 1).val, (i 1).isLt⟩

theorem idx_facts_acc : ∀ t : Fin cfg1.N,
    (win1_8.index t (0 : Fin 2) = t.val / 25 ∧ win1_8.index t (1 : Fin 2) = 0)
    ∧ (win1_9.index t (0 : Fin 2) = t.val / 25 ∧ win1_9.index t (1 : Fin 2) = 0) :=
  (by decide +kernel : ∀ t : Fin grid1.N, _)

theorem emb8 (t : Fin cfg1.N) (a : Fin 8) (q : Fin 128) :
    (((cfg1.win 8).blk t).view.emb (ix2 a q) : S16x128.Idx)
      = ix2 ⟨8 * (t.val / 25) + a.val, by have := t.isLt; have hN : cfg1.N = 50 := N_1; have := a.isLt; omega⟩ q := by
  have hi := (idx_facts_acc t).1
  funext ax
  apply Fin.ext
  match ax with
  | ⟨0, _⟩ => show win1_8.index t (0 : Fin 2) * 8 + 1 * a.val = 8 * (t.val / 25) + a.val; rw [hi.1]; omega
  | ⟨1, _⟩ => show win1_8.index t (1 : Fin 2) * 128 + 1 * q.val = q.val; rw [hi.2]; omega

theorem flushed8_eq (c : Dev nD) (t : Fin cfg1.N) (hf : (cfg1.win 8).flush t = true) :
    (dat1 V c).flushed 8 t = ((cfg1.win 8).blk t).view.read (Elt Ideal) (sumArr V c) := by
  have h24 : t.val % 25 = 24 := (flush1_8 t).mp hf
  show (cfg1.win 8).cut (grid1.coords t) ((dat1 V c).after 8 t) = _
  rw [after1_8]
  refine funext fun (y : S8x128.Idx) => ?_
  obtain ⟨a, q, rfl⟩ : ∃ (a : Fin 8) (q : Fin 128), y = ix2 a q := ⟨y 0, y 1, eq_ix2 y⟩
  show (outsAt1 V c t.val t.isLt).2.1 (ix2 a q) = sumArr V c (((cfg1.win 8).blk t).view.emb (ix2 a q))
  rw [sums_at V c t.val t.isLt h24 a q, emb8 t a q]
  show halfSum V c (t.val / 25) q = halfSum V c ((8 * (t.val / 25) + a.val) / 8) q
  have e : (8 * (t.val / 25) + a.val) / 8 = t.val / 25 := by have := a.isLt; omega
  rw [e]

theorem mem_blk8 (t : Fin cfg1.N) (i : S16x128.Idx) :
    i ∈ ((cfg1.win 8).blk t).view.set ↔ ∀ ax : Fin 2, win1_8.index t ax * S8x128.size ax ≤ (i ax).val ∧ (i ax).val < win1_8.index t ax * S8x128.size ax + S8x128.size ax := by
  show i ∈ ((View.whole main_v79_1).slice (win1_8.rect t)).set ↔ _
  rw [View.set_slice_whole, Rect.mem_set_unit]
  exact Iff.rfl

theorem cover8 (i : S16x128.Idx) : ∃ t : Fin cfg1.N, (cfg1.win 8).flush t = true ∧ i ∈ ((cfg1.win 8).blk t).view.set := by
  have hi0 : (i 0).val < 16 := (i 0).isLt
  have hi1 : (i 1).val < 128 := (i 1).isLt
  have hN : cfg1.N = 50 := N_1
  obtain ⟨t, ht⟩ : ∃ t : Fin cfg1.N, t.val = 25 * ((i 0).val / 8) + 24 := ⟨⟨25 * ((i 0).val / 8) + 24, by omega⟩, rfl⟩
  have hi := (idx_facts_acc t).1
  refine ⟨t, (flush1_8 t).mpr (by omega), ?_⟩
  rw [mem_blk8]
  intro ax
  match ax with
  | ⟨0, _⟩ => show win1_8.index t (0 : Fin 2) * 8 ≤ (i 0).val ∧ (i 0).val < win1_8.index t (0 : Fin 2) * 8 + 8; rw [hi.1]; omega
  | ⟨1, _⟩ => show win1_8.index t (1 : Fin 2) * 128 ≤ (i 1).val ∧ (i 1).val < win1_8.index t (1 : Fin 2) * 128 + 128; rw [hi.2]; omega

theorem final8 (c : Dev nD) : (dat1 V c).arrAt 8 cfg1.N = sumArr V c :=
  (dat1 V c).arrAt_eq_of_cover 8 (sumArr V c) (fun t hf => flushed8_eq V c t hf) cover8

theorem emb9 (t : Fin cfg1.N) (a : Fin 8) (q : Fin 128) :
    (((cfg1.win 9).blk t).view.emb (ix2 a q) : S16x128.Idx)
      = ix2 ⟨8 * (t.val / 25) + a.val, by have := t.isLt; have hN : cfg1.N = 50 := N_1; have := a.isLt; omega⟩ q := by
  have hi := (idx_facts_acc t).2
  funext ax
  apply Fin.ext
  match ax with
  | ⟨0, _⟩ => show win1_9.index t (0 : Fin 2) * 8 + 1 * a.val = 8 * (t.val / 25) + a.val; rw [hi.1]; omega
  | ⟨1, _⟩ => show win1_9.index t (1 : Fin 2) * 128 + 1 * q.val = q.val; rw [hi.2]; omega

theorem flushed9_eq (c : Dev nD) (t : Fin cfg1.N) (hf : (cfg1.win 9).flush t = true) :
    (dat1 V c).flushed 9 t = ((cfg1.win 9).blk t).view.read (Elt Ideal) (sqArr V c) := by
  have h24 : t.val % 25 = 24 := (flush1_9 t).mp hf
  show (cfg1.win 9).cut (grid1.coords t) ((dat1 V c).after 9 t) = _
  rw [after1_9]
  refine funext fun (y : S8x128.Idx) => ?_
  obtain ⟨a, q, rfl⟩ : ∃ (a : Fin 8) (q : Fin 128), y = ix2 a q := ⟨y 0, y 1, eq_ix2 y⟩
  show (outsAt1 V c t.val t.isLt).2.2 (ix2 a q) = sqArr V c (((cfg1.win 9).blk t).view.emb (ix2 a q))
  rw [sqs_at V c t.val t.isLt h24 a q, emb9 t a q]
  show halfSq V c (t.val / 25) q = halfSq V c ((8 * (t.val / 25) + a.val) / 8) q
  have e : (8 * (t.val / 25) + a.val) / 8 = t.val / 25 := by have := a.isLt; omega
  rw [e]

theorem mem_blk9 (t : Fin cfg1.N) (i : S16x128.Idx) :
    i ∈ ((cfg1.win 9).blk t).view.set ↔ ∀ ax : Fin 2, win1_9.index t ax * S8x128.size ax ≤ (i ax).val ∧ (i ax).val < win1_9.index t ax * S8x128.size ax + S8x128.size ax := by
  show i ∈ ((View.whole main_v79_2).slice (win1_9.rect t)).set ↔ _
  rw [View.set_slice_whole, Rect.mem_set_unit]
  exact Iff.rfl

theorem cover9 (i : S16x128.Idx) : ∃ t : Fin cfg1.N, (cfg1.win 9).flush t = true ∧ i ∈ ((cfg1.win 9).blk t).view.set := by
  have hi0 : (i 0).val < 16 := (i 0).isLt
  have hi1 : (i 1).val < 128 := (i 1).isLt
  have hN : cfg1.N = 50 := N_1
  obtain ⟨t, ht⟩ : ∃ t : Fin cfg1.N, t.val = 25 * ((i 0).val / 8) + 24 := ⟨⟨25 * ((i 0).val / 8) + 24, by omega⟩, rfl⟩
  have hi := (idx_facts_acc t).2
  refine ⟨t, (flush1_9 t).mpr (by omega), ?_⟩
  rw [mem_blk9]
  intro ax
  match ax with
  | ⟨0, _⟩ => show win1_9.index t (0 : Fin 2) * 8 ≤ (i 0).val ∧ (i 0).val < win1_9.index t (0 : Fin 2) * 8 + 8; rw [hi.1]; omega
  | ⟨1, _⟩ => show win1_9.index t (1 : Fin 2) * 128 ≤ (i 1).val ∧ (i 1).val < win1_9.index t (1 : Fin 2) * 128 + 128; rw [hi.2]; omega

theorem final9 (c : Dev nD) : (dat1 V c).arrAt 9 cfg1.N = sqArr V c :=
  (dat1 V c).arrAt_eq_of_cover 9 (sqArr V c) (fun t hf => flushed9_eq V c t hf) cover9

end R1A

theorem s2_read (c : Dev nD) (j : Fin 2) (q : Fin 128) :
    ((dat1 (F := Ideal) V c).arrAt 8 cfg1.N : Vec Ideal S16x128 .f32) (ix2 ⟨8 * j.val, by have := j.isLt; omega⟩ q)
      = ∑ i : Fin 25, ∑ r : Fin 4000, EdgeNet.cur2 ((dat1 (F := Ideal) V c).arrAt 7 cfg1.N : Vec Ideal S200000x128 .f32)
          ⟨4000 * (25 * j.val + i.val) + r.val, by have := j.isLt; have := i.isLt; have := r.isLt; omega⟩ q := by
  have hN : cfg1.N = 50 := N_1
  refine (congrFun (R1A.final8 V c) _).trans ?_
  show R1A.halfSum V c ((8 * j.val) / 8) q = _
  rw [Nat.mul_div_cancel_left _ (by decide : 0 < 8)]
  unfold R1A.halfSum
  rw [Finset.sum_range]
  refine Finset.sum_congr rfl fun i _ => ?_
  have hlt : 25 * j.val + i.val < cfg1.N := by have := j.isLt; have := i.isLt; omega
  unfold R1A.tileSum
  rw [dif_pos hlt]
  refine Finset.sum_congr rfl fun r _ => ?_
  exact (h2_block V c ⟨25 * j.val + i.val, hlt⟩ r q).symm

theorem q2_read (c : Dev nD) (j : Fin 2) (q : Fin 128) :
    ((dat1 (F := Ideal) V c).arrAt 9 cfg1.N : Vec Ideal S16x128 .f32) (ix2 ⟨8 * j.val, by have := j.isLt; omega⟩ q)
      = ∑ i : Fin 25, ∑ r : Fin 4000,
          EdgeNet.cur2 ((dat1 (F := Ideal) V c).arrAt 7 cfg1.N : Vec Ideal S200000x128 .f32) ⟨4000 * (25 * j.val + i.val) + r.val, by have := j.isLt; have := i.isLt; have := r.isLt; omega⟩ q
          * EdgeNet.cur2 ((dat1 (F := Ideal) V c).arrAt 7 cfg1.N : Vec Ideal S200000x128 .f32) ⟨4000 * (25 * j.val + i.val) + r.val, by have := j.isLt; have := i.isLt; have := r.isLt; omega⟩ q := by
  have hN : cfg1.N = 50 := N_1
  refine (congrFun (R1A.final9 V c) _).trans ?_
  show R1A.halfSq V c ((8 * j.val) / 8) q = _
  rw [Nat.mul_div_cancel_left _ (by decide : 0 < 8)]
  unfold R1A.halfSq
  rw [Finset.sum_range]
  refine Finset.sum_congr rfl fun i _ => ?_
  have hlt : 25 * j.val + i.val < cfg1.N := by have := j.isLt; have := i.isLt; omega
  unfold R1A.tileSq
  rw [dif_pos hlt]
  refine Finset.sum_congr rfl fun r _ => ?_
  rw [h2_block V c ⟨25 * j.val + i.val, hlt⟩ r q]

end Cert.KernelIdeal.Fr

end
-- ==== Proof.KI.R2.Value.lean ====
import proofs.«416909_j55972013802026_3_alg».proof.Proof.KI.R2.Frame
import proofs.«416909_j55972013802026_3_alg».proof.Proof.Spec
import Idealize.ShloMosaic.Lib.Pipeline.Value
import Idealize.ShloMosaic.Lib.ValueIdx
import Idealize.ShloMosaic.Lib.ValueLayout
import Idealize.ShloMosaic.PureOps.Ideal.Laws

/-! Third call: the output array read at an index. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL.Sem
open Idealize.ShloMosaic.Pipeline (Dat Cfg Window BodyObligation cellOf)
open Idealize.ShloMosaic.ValueIdx

variable (V : (c : Dev nD) → (b : Ref sig .tc) → Buf (Elt Ideal) ((c : Thread nD τ).loc b))

theorem rsqrt_read {s : Shape} {φ : FTy} (a : FVec Ideal s φ) (i : s.Idx) : rsqrt a i = Ideal.rsqrt (a i) := rfl

theorem pay_read (x0 : Vec Ideal S4000x128 .f32) (v2 v7 v13 v17 : Vec Ideal S1x128 .f32) (r : Fin 4000) (q : Fin 128) :
    k2_pay1 (F := Ideal) x0 v2 v7 v13 v17 (ix2 r q)
      = max ((x0 (ix2 r q) - v7 (ix2 0 q)) * Ideal.rsqrt (v2 (ix2 0 q) + EdgeNet.cEps) * v13 (ix2 0 q) + v17 (ix2 0 q)) EdgeNet.c0 := by
  unfold k2_pay1
  simp only [shapeCast_self]
  rw [maximumf_apply, addf_apply, mulf_apply, mulf_apply, subf_apply, broadcast_apply]
  rw [broadcastTo_1b_ab_apply, broadcastTo_1b_ab_apply, broadcastTo_1b_ab_apply, broadcastTo_1b_ab_apply]
  rw [rsqrt_read, addf_apply, broadcast_apply]
  rfl

theorem hz2 : (![0, 0] : Fin 2 → Nat) = fun _ => 0 := funext fun a => by fin_cases a <;> rfl

theorem idx_facts2 : ∀ t : Fin cfg2.N,
    win2_5.index t (0 : Fin 2) = t.val ∧ win2_5.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

theorem rows_read (c : Dev nD) (t : Fin cfg2.N) (r : Fin 4000) (q : Fin 128) :
    (iblk2 V c 0 t : Vec Ideal S4000x128 .f32) (ix2 r q)
      = (V c main_v79_0 : Vec Ideal S200000x128 .f32) (ix2 ⟨4000 * t.val + r.val, by have := t.isLt; have hN : cfg2.N = 50 := N_2; have := r.isLt; omega⟩ q) := by
  obtain ⟨-, -, e0, e1, -⟩ := idx_facts2 t
  unfold iblk2
  rw [View.read_apply]
  show V c main_v79_0 _ = V c main_v79_0 _
  congr 1
  funext a
  apply Fin.ext
  match a with
  | ⟨0, _⟩ => show win2_0.index t (0 : Fin 2) * 4000 + 1 * r.val = 4000 * t.val + r.val; rw [e0]; omega
  | ⟨1, _⟩ => show win2_0.index t (1 : Fin 2) * 128 + 1 * q.val = q.val; rw [e1]; omega

theorem row1_read (c : Dev nD) (t : Fin cfg2.N) (q : Fin 128) :
    (iblk2 V c 1 t : Vec Ideal S1x128 .f32) (ix2 0 q) = (V c main_v47 : Vec Ideal S1x128 .f32) (ix2 0 q) := by
  have hi : win2_1.index t (0 : Fin 2) = 0 ∧ win2_1.index t (1 : Fin 2) = 0 := by
    obtain ⟨-, -, -, -, h1a, h1b, h2a, h2b, h3a, h3b, h4a, h4b⟩ := idx_facts2 t
    exact ⟨h1a, h1b⟩
  unfold iblk2
  rw [View.read_apply]
  show V c main_v47 _ = V c main_v47 _
  congr 1
  funext a
  apply Fin.ext
  match a with
  | ⟨0, _⟩ => show win2_1.index t (0 : Fin 2) * 1 + 1 * 0 = 0; rw [hi.1]
  | ⟨1, _⟩ => show win2_1.index t (1 : Fin 2) * 128 + 1 * q.val = q.val; rw [hi.2]; omega

theorem row2_read (c : Dev nD) (t : Fin cfg2.N) (q : Fin 128) :
    (iblk2 V c 2 t : Vec Ideal S1x128 .f32) (ix2 0 q) = (V c main_v51 : Vec Ideal S1x128 .f32) (ix2 0 q) := by
  have hi : win2_2.index t (0 : Fin 2) = 0 ∧ win2_2.index t (1 : Fin 2) = 0 := by
    obtain ⟨-, -, -, -, h1a, h1b, h2a, h2b, h3a, h3b, h4a, h4b⟩ := idx_facts2 t
    exact ⟨h2a, h2b⟩
  unfold iblk2
  rw [View.read_apply]
  show V c main_v51 _ = V c main_v51 _
  congr 1
  funext a
  apply Fin.ext
  match a with
  | ⟨0, _⟩ => show win2_2.index t (0 : Fin 2) * 1 + 1 * 0 = 0; rw [hi.1]
  | ⟨1, _⟩ => show win2_2.index t (1 : Fin 2) * 128 + 1 * q.val = q.val; rw [hi.2]; omega

theorem row3_read (c : Dev nD) (t : Fin cfg2.N) (q : Fin 128) :
    (iblk2 V c 3 t : Vec Ideal S1x128 .f32) (ix2 0 q) = (V c main_v101 : Vec Ideal S1x128 .f32) (ix2 0 q) := by
  have hi : win2_3.index t (0 : Fin 2) = 0 ∧ win2_3.index t (1 : Fin 2) = 0 := by
    obtain ⟨-, -, -, -, h1a, h1b, h2a, h2b, h3a, h3b, h4a, h4b⟩ := idx_facts2 t
    exact ⟨h3a, h3b⟩
  unfold iblk2
  rw [View.read_apply]
  show V c main_v101 _ = V c main_v101 _
  congr 1
  funext a
  apply Fin.ext
  match a with
  | ⟨0, _⟩ => show win2_3.index t (0 : Fin 2) * 1 + 1 * 0 = 0; rw [hi.1]
  | ⟨1, _⟩ => show win2_3.index t (1 : Fin 2) * 128 + 1 * q.val = q.val; rw [hi.2]; omega

theorem row4_read (c : Dev nD) (t : Fin cfg2.N) (q : Fin 128) :
    (iblk2 V c 4 t : Vec Ideal S1x128 .f32) (ix2 0 q) = (V c main_v105 : Vec Ideal S1x128 .f32) (ix2 0 q) := by
  have hi : win2_4.index t (0 : Fin 2) = 0 ∧ win2_4.index t (1 : Fin 2) = 0 := by
    obtain ⟨-, -, -, -, h1a, h1b, h2a, h2b, h3a, h3b, h4a, h4b⟩ := idx_facts2 t
    exact ⟨h4a, h4b⟩
  unfold iblk2
  rw [View.read_apply]
  show V c main_v105 _ = V c main_v105 _
  congr 1
  funext a
  apply Fin.ext
  match a with
  | ⟨0, _⟩ => show win2_4.index t (0 : Fin 2) * 1 + 1 * 0 = 0; rw [hi.1]
  | ⟨1, _⟩ => show win2_4.index t (1 : Fin 2) * 128 + 1 * q.val = q.val; rw [hi.2]; omega

def outFn (c : Dev nD) (p : Fin 200000) (q : Fin 128) : EReal :=
  max ((EdgeNet.cur2 (V c main_v79_0 : Vec Ideal S200000x128 .f32) p q - EdgeNet.cur2 (V c main_v101 : Vec Ideal S1x128 .f32) 0 q) * Ideal.rsqrt (EdgeNet.cur2 (V c main_v105 : Vec Ideal S1x128 .f32) 0 q + EdgeNet.cEps)
        * EdgeNet.cur2 (V c main_v47 : Vec Ideal S1x128 .f32) 0 q + EdgeNet.cur2 (V c main_v51 : Vec Ideal S1x128 .f32) 0 q) EdgeNet.c0

def outArr (c : Dev nD) : Vec Ideal S200000x128 .f32 := fun i => outFn V c ⟨(i 0).val, (i 0).isLt⟩ ⟨(i 1).val, (i 1).isLt⟩

theorem outArr_apply (c : Dev nD) (p : Fin 200000) (q : Fin 128) : outArr V c (ix2 p q) = outFn V c p q := rfl

theorem emb5 (t : Fin cfg2.N) (r : Fin 4000) (q : Fin 128) :
    (((cfg2.win 5).blk t).view.emb (ix2 r q) : S200000x128.Idx)
      = ix2 ⟨4000 * t.val + r.val, by have := t.isLt; have hN : cfg2.N = 50 := N_2; have := r.isLt; omega⟩ q := by
  obtain ⟨e0, e1, -⟩ := idx_facts2 t
  funext a
  apply Fin.ext
  match a with
  | ⟨0, _⟩ => show win2_5.index t (0 : Fin 2) * 4000 + 1 * r.val = 4000 * t.val + r.val; rw [e0]; omega
  | ⟨1, _⟩ => show win2_5.index t (1 : Fin 2) * 128 + 1 * q.val = q.val; rw [e1]; omega

theorem flushed5_eq (c : Dev nD) (t : Fin cfg2.N) :
    (dat2 V c).flushed 5 t = ((cfg2.win 5).blk t).view.read (Elt Ideal) (outArr V c) := by
  show (cfg2.win 5).cut (grid2.coords t) ((dat2 V c).after 5 t) = _
  rw [after2_5]
  unfold out2_5
  rw [View.canon_unit_zero hz2]
  simp only [View.ld_unit_zero (S := S4000x128) hz2, View.ld_unit_zero (S := S1x128) hz2]
  refine funext fun (j : S4000x128.Idx) => ?_
  obtain ⟨r, q, rfl⟩ : ∃ (r : Fin 4000) (q : Fin 128), j = ix2 r q := ⟨j 0, j 1, eq_ix2 j⟩
  show k2_pay1 (F := Ideal) (iblk2 V c 0 t) (iblk2 V c 4 t) (iblk2 V c 3 t) (iblk2 V c 1 t) (iblk2 V c 2 t) (ix2 r q)
    = outArr V c (((cfg2.win 5).blk t).view.emb (ix2 r q))
  refine (pay_read (iblk2 V c 0 t) (iblk2 V c 4 t) (iblk2 V c 3 t) (iblk2 V c 1 t) (iblk2 V c 2 t) r q).trans ?_
  rw [rows_read V c t r q, row1_read V c t q, row2_read V c t q, row3_read V c t q, row4_read V c t q, emb5 t r q, outArr_apply]
  rfl

theorem mem_blk5 (t : Fin cfg2.N) (i : S200000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v106).slice (win2_5.rect t)).set ↔ _
  rw [View.set_slice_whole, Rect.mem_set_unit]
  exact Iff.rfl

theorem cover5 (i : S200000x128.Idx) : ∃ t : Fin cfg2.N, (cfg2.win 5).flush t = true ∧ i ∈ ((cfg2.win 5).blk t).view.set := by
  have hi0 : (i 0).val < 200000 := (i 0).isLt
  have hi1 : (i 1).val < 128 := (i 1).isLt
  have hN : cfg2.N = 50 := N_2
  obtain ⟨t, ht⟩ : ∃ t : Fin cfg2.N, t.val = (i 0).val / 4000 := ⟨⟨(i 0).val / 4000, by omega⟩, rfl⟩
  obtain ⟨e0, e1, -⟩ := idx_facts2 t
  refine ⟨t, flush2_5 t, ?_⟩
  rw [mem_blk5]
  intro a
  match a with
  | ⟨0, _⟩ => show win2_5.index t (0 : Fin 2) * 4000 ≤ (i 0).val ∧ (i 0).val < win2_5.index t (0 : Fin 2) * 4000 + 4000; rw [e0]; omega
  | ⟨1, _⟩ => show win2_5.index t (1 : Fin 2) * 128 ≤ (i 1).val ∧ (i 1).val < win2_5.index t (1 : Fin 2) * 128 + 128; rw [e1]; omega

theorem final5 (c : Dev nD) : (dat2 V c).arrAt 5 cfg2.N = outArr V c :=
  (dat2 V c).arrAt_eq_of_cover 5 (outArr V c) (fun t _ => flushed5_eq V c t) cover5

theorem out_read (c : Dev nD) (p : Fin 200000) (q : Fin 128) :
    ((dat2 (F := Ideal) V c).arrAt 5 cfg2.N : Vec Ideal S200000x128 .f32) (ix2 p q)
      = max ((EdgeNet.cur2 (V c main_v79_0 : Vec Ideal S200000x128 .f32) p q - EdgeNet.cur2 (V c main_v101 : Vec Ideal S1x128 .f32) 0 q) * Ideal.rsqrt (EdgeNet.cur2 (V c main_v105 : Vec Ideal S1x128 .f32) 0 q + EdgeNet.cEps)
        * EdgeNet.cur2 (V c main_v47 : Vec Ideal S1x128 .f32) 0 q + EdgeNet.cur2 (V c main_v51 : Vec Ideal S1x128 .f32) 0 q) EdgeNet.c0 :=
  (congrFun (final5 V c) (ix2 p q)).trans (outArr_apply V c p q)

end Cert.KernelIdeal.Fr

end
-- ==== Proof.KI.Bridge.lean ====
import proofs.«416909_j55972013802026_3_alg».proof.Proof.KI.Fold
import proofs.«416909_j55972013802026_3_alg».proof.Proof.KI.HostPre
import proofs.«416909_j55972013802026_3_alg».proof.Proof.KI.HostMid
import proofs.«416909_j55972013802026_3_alg».proof.Proof.KI.R0.Value
import proofs.«416909_j55972013802026_3_alg».proof.Proof.KI.R0.ValueAcc
import proofs.«416909_j55972013802026_3_alg».proof.Proof.KI.R1.Value
import proofs.«416909_j55972013802026_3_alg».proof.Proof.KI.R1.ValueAcc
import proofs.«416909_j55972013802026_3_alg».proof.Proof.KI.R2.Value
import proofs.«416909_j55972013802026_3_alg».proof.Proof.Spec
import Idealize.ShloMosaic.Lib.Pipeline.Value
import Idealize.ShloMosaic.Lib.ValueIdx
import Idealize.ShloMosaic.PureOps.Ideal.Laws

/-! The three calls and the host operations between them compute the packed arrangement of the edge network. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL.Sem
open Idealize.ShloMosaic.Pipeline (Dat Cfg Window BodyObligation cellOf)
open Idealize.ShloMosaic.ValueIdx
open scoped BigOperators

section Bridge
open EdgeNet (cur2 cur1)

variable (m : (ℓ : Loc nD τ sig) → Buf (Elt Ideal) ℓ) (c : Dev nD)

abbrev xr : Fin 800000 → Fin 32 → EReal := cur2 (W2 m c main_v4 : Vec Ideal S800000x32 .f32)
abbrev xc : Fin 800000 → Fin 32 → EReal := cur2 (W3 m c main_v5 : Vec Ideal S800000x32 .f32)

abbrev w1 : Fin 64 → Fin 32 → EReal := cur2 (m ((c : Thread nD τ).loc main_arg1) : Vec Ideal S64x32 .f32)
abbrev b1 : Fin 32 → EReal := cur1 (m ((c : Thread nD τ).loc main_arg2) : Vec Ideal S32 .f32)
abbrev g1 : Fin 32 → EReal := cur1 (m ((c : Thread nD τ).loc main_arg3) : Vec Ideal S32 .f32)
abbrev be1 : Fin 32 → EReal := cur1 (m ((c : Thread nD τ).loc main_arg4) : Vec Ideal S32 .f32)
abbrev w2 : Fin 32 → Fin 32 → EReal := cur2 (m ((c : Thread nD τ).loc main_arg5) : Vec Ideal S32x32 .f32)
abbrev b2 : Fin 32 → EReal := cur1 (m ((c : Thread nD τ).loc main_arg6) : Vec Ideal S32 .f32)
abbrev g2 : Fin 32 → EReal := cur1 (m ((c : Thread nD τ).loc main_arg7) : Vec Ideal S32 .f32)
abbrev be2 : Fin 32 → EReal := cur1 (m ((c : Thread nD τ).loc main_arg8) : Vec Ideal S32 .f32)

def f1 : Fin 200000 → Fin 128 → EReal := cur2 ((dat0 (F := Ideal) (V4 m) c).arrAt 5 cfg0.N : Vec Ideal S200000x128 .f32)
def f2 : Fin 200000 → Fin 128 → EReal := cur2 ((dat1 (F := Ideal) (V6 m) c).arrAt 7 cfg1.N : Vec Ideal S200000x128 .f32)

theorem v6_read (p : Fin 200000) (k : Fin 128) :
    cur2 (V4 m c main_v6 : Vec Ideal S200000x128 .f32) p k = EdgeNet.pk (xr m c) p k :=
  (pre_v6 (W3 m c) p k).trans (congrFun (W3_main_v4 m c) _)

theorem v7_read (p : Fin 200000) (k : Fin 128) :
    cur2 (V4 m c main_v7 : Vec Ideal S200000x128 .f32) p k = EdgeNet.pk (xc m c) p k :=
  pre_v7 (W3 m c) p k

theorem v15_read (k q : Fin 128) :
    cur2 (V4 m c main_v15 : Vec Ideal S128x128 .f32) k q = EdgeNet.bd (EdgeNet.W1a (w1 m c)) k q :=
  (pre_v15 (W3 m c) k q).trans (if_congr Iff.rfl (congrFun (W3_arg m c (r := main_arg1) (by decide)) _) rfl)

theorem v21_read (k q : Fin 128) :
    cur2 (V4 m c main_v21 : Vec Ideal S128x128 .f32) k q = EdgeNet.bd (EdgeNet.W1b (w1 m c)) k q :=
  (pre_v21 (W3 m c) k q).trans (if_congr Iff.rfl (congrFun (W3_arg m c (r := main_arg1) (by decide)) _) rfl)

theorem v31_read (q : Fin 128) :
    cur2 (V4 m c main_v31 : Vec Ideal S1x128 .f32) 0 q = EdgeNet.tl (b1 m c) q :=
  (pre_v31 (W3 m c) q).trans (congrFun (W3_arg m c (r := main_arg2) (by decide)) _)

theorem f1_apply (p : Fin 200000) (q : Fin 128) :
    f1 m c p q = EdgeNet.klin1 (xr m c) (xc m c) (w1 m c) (b1 m c) p q := by
  refine (h1_read (V4 m) c p q).trans ?_
  unfold EdgeNet.klin1
  refine congrArg₂ (· + ·) (congrArg₂ (· + ·) ?_ ?_) (v31_read m c q)
  · exact Finset.sum_congr rfl fun k _ => congrArg₂ (· * ·) (v6_read m c p k) (v15_read m c k q)
  · exact Finset.sum_congr rfl fun k _ => congrArg₂ (· * ·) (v7_read m c p k) (v21_read m c k q)

theorem f1_eq : f1 m c = EdgeNet.klin1 (xr m c) (xc m c) (w1 m c) (b1 m c) :=
  funext fun p => funext fun q => f1_apply m c p q

end Bridge

section Bridge2
open EdgeNet (cur2 cur1)

variable (m : (ℓ : Loc nD τ sig) → Buf (Elt Ideal) ℓ) (c : Dev nD)

theorem chanSum_of_rows (S : Vec Ideal S16x128 .f32) (g : Fin 200000 → Fin 128 → EReal)
    (hrow : ∀ (j : Fin 2) (q' : Fin 128), cur2 S ⟨8 * j.val, by have := j.isLt; omega⟩ q' = EdgeNet.tileSum g j q')
    (q : Fin 128) :
    EdgeNet.c0 + ∑ c : Fin 4,
        (cur2 (n0 := 16) (n1 := 128) S (0 : Fin 16) (⟨32 * c.val + q.val % 32, by have := c.isLt; have := Nat.mod_lt q.val (show 0 < 32 by decide); omega⟩ : Fin 128)
          + cur2 (n0 := 16) (n1 := 128) S (8 : Fin 16) (⟨32 * c.val + q.val % 32, by have := c.isLt; have := Nat.mod_lt q.val (show 0 < 32 by decide); omega⟩ : Fin 128))
      = EdgeNet.chanSum (EdgeNet.tileSum g) ⟨q.val % 32, Nat.mod_lt _ (by decide)⟩ := by
  unfold EdgeNet.chanSum
  refine congrArg (EdgeNet.c0 + ·) (Finset.sum_congr rfl fun c' _ => congrArg₂ (· + ·) ?_ ?_)
  · exact hrow 0 _
  · exact hrow 1 _

theorem s1_row (j : Fin 2) (q' : Fin 128) :
    cur2 (W5 m c main_v52_1 : Vec Ideal S16x128 .f32) ⟨8 * j.val, by have := j.isLt; omega⟩ q' = EdgeNet.tileSum (f1 m c) j q' :=
  (congrFun (W5_arr m c 6) _).trans (s1_read (V4 m) c j q')

theorem q1_row (j : Fin 2) (q' : Fin 128) :
    cur2 (W5 m c main_v52_2 : Vec Ideal S16x128 .f32) ⟨8 * j.val, by have := j.isLt; omega⟩ q'
      = EdgeNet.tileSum (fun p q => f1 m c p q * f1 m c p q) j q' :=
  (congrFun (W5_arr m c 7) _).trans (q1_read (V4 m) c j q')

theorem mean1_read (q : Fin 128) :
    cur2 (V6 m c main_v74 : Vec Ideal S1x128 .f32) 0 q = EdgeNet.tl (EdgeNet.kMean (f1 m c)) q :=
  (mid_v74 (W5 m c) q).trans
    (congrArg (fun x => Ideal.div x EdgeNet.cN) (chanSum_of_rows (W5 m c main_v52_1) (f1 m c) (s1_row m c) q))

theorem var1_read (q : Fin 128) :
    cur2 (V6 m c main_v78 : Vec Ideal S1x128 .f32) 0 q = EdgeNet.tl (EdgeNet.kVar (f1 m c)) q := by
  refine (mid_v78 (W5 m c) q).trans ?_
  have hs := chanSum_of_rows (W5 m c main_v52_1) (f1 m c) (s1_row m c) q
  have hq := chanSum_of_rows (W5 m c main_v52_2) (fun p q => f1 m c p q * f1 m c p q) (q1_row m c) q
  unfold grpDiv
  rw [hs, hq]
  rfl

end Bridge2

section Bridge3
open EdgeNet (cur2 cur1)

variable (m : (ℓ : Loc nD τ sig) → Buf (Elt Ideal) ℓ) (c : Dev nD)

theorem h1arr_read (p : Fin 200000) (k : Fin 128) :
    cur2 (V6 m c main_v52_0 : Vec Ideal S200000x128 .f32) p k = f1 m c p k :=
  congrFun ((W6_main_v52_0 m c).trans (W5_arr m c 5)) _

theorem v35_read (k : Fin 128) :
    cur2 (V6 m c main_v35 : Vec Ideal S1x128 .f32) 0 k = EdgeNet.tl (g1 m c) k :=
  (congrFun (W6_main_v35 m c) _).trans
    ((pre_v35 (W3 m c) k).trans (congrFun (W3_arg m c (r := main_arg3) (by decide)) _))

theorem v39_read (k : Fin 128) :
    cur2 (V6 m c main_v39 : Vec Ideal S1x128 .f32) 0 k = EdgeNet.tl (be1 m c) k :=
  (congrFun (W6_main_v39 m c) _).trans
    ((pre_v39 (W3 m c) k).trans (congrFun (W3_arg m c (r := main_arg4) (by decide)) _))

theorem v27_read (k q : Fin 128) :
    cur2 (V6 m c main_v27 : Vec Ideal S128x128 .f32) k q = EdgeNet.bd (w2 m c) k q :=
  (congrFun (W6_main_v27 m c) _).trans
    ((pre_v27 (W3 m c) k q).trans (if_congr Iff.rfl (congrFun (W3_arg m c (r := main_arg5) (by decide)) _) rfl))

theorem v43_read (q : Fin 128) :
    cur2 (V6 m c main_v43 : Vec Ideal S1x128 .f32) 0 q = EdgeNet.tl (b2 m c) q :=
  (congrFun (W6_main_v43 m c) _).trans
    ((pre_v43 (W3 m c) q).trans (congrFun (W3_arg m c (r := main_arg6) (by decide)) _))

theorem a1_read (p : Fin 200000) (k : Fin 128) :
    a1 (V6 m) c p k = EdgeNet.kBnRelu (f1 m c) (g1 m c) (be1 m c) p k := by
  unfold a1 EdgeNet.kBnRelu
  refine congrArg (fun x => max x EdgeNet.c0) ?_
  refine congrArg₂ (· + ·) (congrArg₂ (· * ·) (congrArg₂ (· * ·) (congrArg₂ (· - ·) ?_ ?_)
    (congrArg (fun x => Ideal.rsqrt (x + EdgeNet.cEps)) ?_)) ?_) ?_
  · exact h1arr_read m c p k
  · exact mean1_read m c k
  · exact var1_read m c k
  · exact v35_read m c k
  · exact v39_read m c k

theorem f2_apply (p : Fin 200000) (q : Fin 128) :
    f2 m c p q = EdgeNet.klin2 (w2 m c) (b2 m c) (EdgeNet.kBnRelu (f1 m c) (g1 m c) (be1 m c)) p q := by
  refine (h2_read (V6 m) c p q).trans ?_
  unfold EdgeNet.klin2
  exact congrArg₂ (· + ·)
    (Finset.sum_congr rfl fun k _ => congrArg₂ (· * ·) (a1_read m c p k) (v27_read m c k q)) (v43_read m c q)

theorem f2_eq : f2 m c = EdgeNet.klin2 (w2 m c) (b2 m c) (EdgeNet.kBnRelu (f1 m c) (g1 m c) (be1 m c)) :=
  funext fun p => funext fun q => f2_apply m c p q

theorem s2_row (j : Fin 2) (q' : Fin 128) :
    cur2 (W7 m c main_v79_1 : Vec Ideal S16x128 .f32) ⟨8 * j.val, by have := j.isLt; omega⟩ q' = EdgeNet.tileSum (f2 m c) j q' :=
  (congrFun (W7_arr m c 8) _).trans (s2_read (V6 m) c j q')

theorem q2_row (j : Fin 2) (q' : Fin 128) :
    cur2 (W7 m c main_v79_2 : Vec Ideal S16x128 .f32) ⟨8 * j.val, by have := j.isLt; omega⟩ q'
      = EdgeNet.tileSum (fun p q => f2 m c p q * f2 m c p q) j q' :=
  (congrFun (W7_arr m c 9) _).trans (q2_read (V6 m) c j q')

theorem mean2_read (q : Fin 128) :
    cur2 (V8 m c main_v101 : Vec Ideal S1x128 .f32) 0 q = EdgeNet.tl (EdgeNet.kMean (f2 m c)) q :=
  (mid_v101 (W7 m c) q).trans
    (congrArg (fun x => Ideal.div x EdgeNet.cN) (chanSum_of_rows (W7 m c main_v79_1) (f2 m c) (s2_row m c) q))

theorem var2_read (q : Fin 128) :
    cur2 (V8 m c main_v105 : Vec Ideal S1x128 .f32) 0 q = EdgeNet.tl (EdgeNet.kVar (f2 m c)) q := by
  refine (mid_v105 (W7 m c) q).trans ?_
  have hs := chanSum_of_rows (W7 m c main_v79_1) (f2 m c) (s2_row m c) q
  have hq := chanSum_of_rows (W7 m c main_v79_2) (fun p q => f2 m c p q * f2 m c p q) (q2_row m c) q
  unfold grpDiv
  rw [hs, hq]
  rfl

theorem h2arr_read (p : Fin 200000) (q : Fin 128) :
    cur2 (V8 m c main_v79_0 : Vec Ideal S200000x128 .f32) p q = f2 m c p q :=
  congrFun ((W8_main_v79_0 m c).trans (W7_arr m c 7)) _

theorem v47_read (q : Fin 128) :
    cur2 (V8 m c main_v47 : Vec Ideal S1x128 .f32) 0 q = EdgeNet.tl (g2 m c) q :=
  (congrFun (W8_main_v47 m c) _).trans
    ((pre_v47 (W3 m c) q).trans (congrFun (W3_arg m c (r := main_arg7) (by decide)) _))

theorem v51_read (q : Fin 128) :
    cur2 (V8 m c main_v51 : Vec Ideal S1x128 .f32) 0 q = EdgeNet.tl (be2 m c) q :=
  (congrFun (W8_main_v51 m c) _).trans
    ((pre_v51 (W3 m c) q).trans (congrFun (W3_arg m c (r := main_arg8) (by decide)) _))

theorem kernel_out (p : Fin 200000) (q : Fin 128) :
    ((dat2 (F := Ideal) (V8 m) c).arrAt 5 cfg2.N : Vec Ideal S200000x128 .f32) (ix2 p q)
      = EdgeNet.kerOut (xr m c) (xc m c) (w1 m c) (b1 m c) (g1 m c) (be1 m c) (w2 m c) (b2 m c) (g2 m c) (be2 m c) p q := by
  refine (out_read (V8 m) c p q).trans ?_
  unfold EdgeNet.kerOut
  rw [← f1_eq m c, ← f2_eq m c]
  unfold EdgeNet.kBnRelu
  refine congrArg (fun x => max x EdgeNet.c0) ?_
  refine congrArg₂ (· + ·) (congrArg₂ (· * ·) (congrArg₂ (· * ·) (congrArg₂ (· - ·) ?_ ?_)
    (congrArg (fun x => Ideal.rsqrt (x + EdgeNet.cEps)) ?_)) ?_) ?_
  · exact h2arr_read m c p q
  · exact mean2_read m c q
  · exact var2_read m c q
  · exact v47_read m c q
  · exact v51_read m c q

end Bridge3

end Cert.KernelIdeal.Fr

end
-- ==== Proof.Final.lean ====
import proofs.«416909_j55972013802026_3_alg».proof.Defs
import proofs.«416909_j55972013802026_3_alg».proof.Proof.Gen.KernelIdeal
import proofs.«416909_j55972013802026_3_alg».proof.Proof.Gen.ReferenceIdeal
import proofs.«416909_j55972013802026_3_alg».proof.Proof.Gen.Pre_finite_inputs
import proofs.«416909_j55972013802026_3_alg».proof.Proof.KI.Fold
import proofs.«416909_j55972013802026_3_alg».proof.Proof.KI.HostMid
import proofs.«416909_j55972013802026_3_alg».proof.Proof.Math
import proofs.«416909_j55972013802026_3_alg».proof.Proof.RefRun
import proofs.«416909_j55972013802026_3_alg».proof.Proof.RefRead
import proofs.«416909_j55972013802026_3_alg».proof.Proof.RefValue
import proofs.«416909_j55972013802026_3_alg».proof.Proof.RefBridge
import proofs.«416909_j55972013802026_3_alg».proof.Proof.PreFacts
import proofs.«416909_j55972013802026_3_alg».proof.Proof.KI.HostTake
import proofs.«416909_j55972013802026_3_alg».proof.Proof.KI.Run
import proofs.«416909_j55972013802026_3_alg».proof.Proof.KI.Bridge

/-! Both programs end at the scatter-add, into zeros and at the same indices, of the same messages. -/

set_option maxRecDepth 16384

noncomputable section

namespace Cert.Proof.Parts

open Cert.KernelIdeal Cert.KernelIdeal.Gen Cert.KernelIdeal.Fr
open Idealize.ShloMosaic Idealize.ShloMosaic.TcCoe Idealize.SL.Sem
open Idealize.ShloMosaic.ValueIdx

variable (m : (ℓ : Loc nD τ sig) → Buf (Elt Ideal) ℓ) (c : Dev nD)

abbrev A0 : Vec Ideal S50000x32 .f32 := m ((c.tc : Thread nD τ).loc main_arg0)
abbrev A1 : Vec Ideal S64x32 .f32 := m ((c.tc : Thread nD τ).loc main_arg1)
abbrev A2 : Vec Ideal S32 .f32 := m ((c.tc : Thread nD τ).loc main_arg2)
abbrev A3 : Vec Ideal S32 .f32 := m ((c.tc : Thread nD τ).loc main_arg3)
abbrev A4 : Vec Ideal S32 .f32 := m ((c.tc : Thread nD τ).loc main_arg4)
abbrev A5 : Vec Ideal S32x32 .f32 := m ((c.tc : Thread nD τ).loc main_arg5)
abbrev A6 : Vec Ideal S32 .f32 := m ((c.tc : Thread nD τ).loc main_arg6)
abbrev A7 : Vec Ideal S32 .f32 := m ((c.tc : Thread nD τ).loc main_arg7)
abbrev A8 : Vec Ideal S32 .f32 := m ((c.tc : Thread nD τ).loc main_arg8)
abbrev A9 : Vec Ideal S2x800000 .i32 := m ((c.tc : Thread nD τ).loc main_arg9)

theorem srcIdx : (W1 m c main_v1 : Vec Ideal S800000 .i32) = IK0 (A9 m c) := pre_v1 (W0 m c)

theorem tgtIdx : (W2 m c main_v3 : Vec Ideal S800000 .i32) = IK1 (A9 m c) :=
  (W2_main_v3 m c).trans (pre_v3 (W0 m c))

section range
variable (h9 : ∀ i : S2x800000.Idx, 0 ≤ (A9 m c i).toInt ∧ (A9 m c i).toInt < 50000)
include h9

theorem srcRange (i : S800000.Idx) : 0 ≤ ((W1 m c main_v1 : Vec Ideal S800000 .i32) i).toInt
    ∧ ((W1 m c main_v1 : Vec Ideal S800000 .i32) i).toInt < 50000 := by
  obtain ⟨e, rfl⟩ : ∃ e : Fin 800000, i = ix1 e := ⟨i 0, eq_ix1 i⟩
  rw [srcIdx]
  exact idx_range0 (A9 m c) h9 e

theorem tgtRange (i : S800000.Idx) : 0 ≤ ((W2 m c main_v3 : Vec Ideal S800000 .i32) i).toInt
    ∧ ((W2 m c main_v3 : Vec Ideal S800000 .i32) i).toInt < 50000 := by
  obtain ⟨e, rfl⟩ : ∃ e : Fin 800000, i = ix1 e := ⟨i 0, eq_ix1 i⟩
  rw [tgtIdx]
  exact idx_range1 (A9 m c) h9 e

theorem gath0 : (W2 m c main_v4 : Vec Ideal S800000x32 .f32) = Cert.ReferenceIdeal.ReadP.val_main_v10 (F := Ideal) (A0 m c) (A9 m c) := by
  have h := take_v4 (W1 m c) (srcRange m c h9)
  rw [srcIdx m c, W1_arg m c (r := main_arg0) (by decide)] at h
  exact h.trans (kgather0 (A0 m c) (A9 m c))

theorem gath1 : (W3 m c main_v5 : Vec Ideal S800000x32 .f32) = Cert.ReferenceIdeal.ReadP.val_main_v17 (F := Ideal) (A0 m c) (A9 m c) := by
  have h := take_v5 (W2 m c) (tgtRange m c h9)
  rw [tgtIdx m c, W2_arg m c (r := main_arg0) (by decide)] at h
  exact h.trans (kgather1 (A0 m c) (A9 m c))

end range

theorem out9 : (W9 m c main_v106 : Vec Ideal S200000x128 .f32) = (dat2 (F := Ideal) (V8 m) c).arrAt 5 cfg2.N :=
  W9_arr m c 5

theorem packed_out (p : Fin 200000) (q : Fin 128) :
    ((dat2 (F := Ideal) (V8 m) c).arrAt 5 cfg2.N : Vec Ideal S200000x128 .f32) (ix2 p q)
      = EdgeNet.kerOut (EdgeNet.cur2 (W2 m c main_v4 : Vec Ideal S800000x32 .f32))
          (EdgeNet.cur2 (W3 m c main_v5 : Vec Ideal S800000x32 .f32)) (EdgeNet.cur2 (A1 m c)) (EdgeNet.cur1 (A2 m c))
          (EdgeNet.cur1 (A3 m c)) (EdgeNet.cur1 (A4 m c)) (EdgeNet.cur2 (A5 m c)) (EdgeNet.cur1 (A6 m c))
          (EdgeNet.cur1 (A7 m c)) (EdgeNet.cur1 (A8 m c)) p q :=
  kernel_out m c p q

theorem msgs (hp : Cert.Pre_finite_inputs.fn (F := Ideal) (A0 m c) (A1 m c) (A2 m c) (A3 m c) (A4 m c) (A5 m c) (A6 m c) (A7 m c) (A8 m c) (A9 m c) = fun _ => 1#1) :
    shapeCast S800000x32 (W9 m c main_v106 : Vec Ideal S200000x128 .f32) shapeCasts_S200000x128_S800000x32
      = Cert.ReferenceIdeal.ReadP.val_main_v78 (F := Ideal) (A0 m c) (A1 m c) (A2 m c) (A3 m c) (A4 m c) (A5 m c) (A6 m c) (A7 m c) (A8 m c) (A9 m c) := by
  obtain ⟨h0, h1, h2, h3, h4, h5, h6, h7, h8, h9⟩ := Cert.Pre_finite_inputs.Decode.decode _ _ _ _ _ _ _ _ _ _ hp
  funext i
  obtain ⟨e, j, rfl⟩ : ∃ (e : Fin 800000) (j : Fin 32), i = ix2 e j := ⟨i 0, i 1, eq_ix2 i⟩
  have he := e.isLt
  have hj := j.isLt
  have f1 : EdgeNet.Fin2 (EdgeNet.cur2 (A1 m c)) := fun a b => h1 (ix2 a b)
  have f2 : EdgeNet.Fin1 (EdgeNet.cur1 (A2 m c)) := fun a => h2 (ix1 a)
  have f3 : EdgeNet.Fin1 (EdgeNet.cur1 (A3 m c)) := fun a => h3 (ix1 a)
  have f4 : EdgeNet.Fin1 (EdgeNet.cur1 (A4 m c)) := fun a => h4 (ix1 a)
  have f5 : EdgeNet.Fin2 (EdgeNet.cur2 (A5 m c)) := fun a b => h5 (ix2 a b)
  have f6 : EdgeNet.Fin1 (EdgeNet.cur1 (A6 m c)) := fun a => h6 (ix1 a)
  have f7 : EdgeNet.Fin1 (EdgeNet.cur1 (A7 m c)) := fun a => h7 (ix1 a)
  have f8 : EdgeNet.Fin1 (EdgeNet.cur1 (A8 m c)) := fun a => h8 (ix1 a)
  rw [reshape_read, out9, packed_out, gath0 m c h9, gath1 m c h9,
    EdgeNet.kerOut_eq _ _ _ _ _ _ _ _ _ _ (gather_real0 _ _ h0) (gather_real1 _ _ h0) f1 f2 f3 f4 f5 f6 f7 f8,
    Cert.ReferenceIdeal.RefValue.hfinal_read]
  unfold EdgeNet.pk
  refine congr (congrArg _ (Fin.ext ?_)) (Fin.ext ?_)
  · show 4 * (e.val / 4) + (32 * (e.val % 4) + j.val) / 32 = e.val
    omega
  · show (32 * (e.val % 4) + j.val) % 32 = j.val
    omega

theorem kernel_result (hp : Cert.Pre_finite_inputs.fn (F := Ideal) (A0 m c) (A1 m c) (A2 m c) (A3 m c) (A4 m c) (A5 m c) (A6 m c) (A7 m c) (A8 m c) (A9 m c) = fun _ => 1#1) :
    (W10 m c main_v110 : Vec Ideal S50000x32 .f32) = Cert.ReferenceIdeal.ReadP.val_main_v81 (F := Ideal) (A0 m c) (A1 m c) (A2 m c) (A3 m c) (A4 m c) (A5 m c) (A6 m c) (A7 m c) (A8 m c) (A9 m c) := by
  have e1 := fin_v110 (W9 m c)
  rw [W9_main_v1, srcIdx, msgs m c hp, zeros_eq, sidx_eq, scatter_eq] at e1
  exact e1

theorem algebraic : Cert.algebraic_KernelIdeal_ReferenceIdeal := fun m ρ m' ρ' hpre hagree =>
  ⟨fun c => W10 m c main_v110, result_run m ρ,
    (θ_run Cert.ReferenceIdeal.defs _ _).mono (fun r h c => ⟨by
      obtain ⟨g0, g1, g2, g3, g4, g5, g6, g7, g8, g9⟩ := hagree c
      rw [(h c).1, Cert.ReferenceIdeal.ReadP.val_main_v81_eq, g0, g1, g2, g3, g4, g5, g6, g7, g8, g9]
      exact (kernel_result m c (hpre c)).symm, (h c).2⟩)
    (Cert.ReferenceIdeal.ValueP.run (F := Ideal) m' ρ')⟩

end Cert.Proof.Parts

end
-- ==== Proof.lean ====
/-
  The claims, assembled. The program is an edge network over a graph of 50000 nodes and 800000 edges: each edge's
  source and target rows are gathered and concatenated, mapped by an affine layer, normalised per channel over all
  edges and clamped at zero, twice, and the per-edge messages are summed into their source nodes.
  The kernel's program and its idealization are one text, so one frame, generic in the float instance, serves both;
  at the extended reals both programs are the scatter-add of the same per-edge messages (Spec, Math, Final).
-/
import proofs.«416909_j55972013802026_3_alg».proof.Defs
import proofs.«416909_j55972013802026_3_alg».proof.Proof.Gen.Kernel
import proofs.«416909_j55972013802026_3_alg».proof.Proof.Gen.KernelIdeal
import proofs.«416909_j55972013802026_3_alg».proof.Proof.Gen.ReferenceIdeal
import proofs.«416909_j55972013802026_3_alg».proof.Proof.Gen.Pre_finite_inputs
import proofs.«416909_j55972013802026_3_alg».proof.Proof.KI.Run
import proofs.«416909_j55972013802026_3_alg».proof.Proof.RefSide
import proofs.«416909_j55972013802026_3_alg».proof.Proof.Final
import Idealize.ShloMosaic.Adequacy
import Idealize.ShloMosaic.Init

noncomputable section

namespace Cert.Proof

open Idealize.ShloMosaic Idealize.SL.Sem

-- The two printed programs are one term up to the names of their definitions, so the two frame statements are equal by reflexivity.
theorem claim : Cert.Claim :=
  ⟨Cert.Kernel.Gen.facts, Cert.KernelIdeal.Gen.facts, Cert.ReferenceIdeal.Gen.facts, Cert.Pre_finite_inputs.Gen.facts,
    fun m ρ _ => cast (by sl_kernel_rfl) (Cert.KernelIdeal.Fr.frame (F := Bits) m ρ),
    fun m ρ _ => Cert.KernelIdeal.Fr.frame m ρ,
    Cert.Proof.Parts.frame_ri,
    trivial,
    Cert.Proof.Parts.algebraic⟩

end Cert.Proof

end
